-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : FVec F S64 .f32) (main_arg5 : IVec S800000 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S800000 32 := broadcastInDim S800000 ![] bcast_S_S800000 main_c_8
  let main_v25 : IVec S800000 1 := cmpi .sge main_arg5 main_v24
  let main_c_9 : IVec S_ 32 := constantI S_ 32 50000#32
  let main_v26 : IVec S800000 32 := broadcastInDim S800000 ![] bcast_S_S800000 main_c_9
  let main_v27 : IVec S800000 1 := cmpi .slt main_arg5 main_v26
  let main_v28 : IVec S800000 1 := andi main_v25 main_v27
  let main_c_10 : IVec S_ 1 := constantI S_ 1 1#1
  let main_v29 : IVec S_ 1 := (fun x v => Host.reduce IntOp.andi x v reducesTo_S800000_S_d0 h_S_) main_v28 main_c_10
  let main_v30 : IVec S_ 1 := andi main_v23 main_v29
  main_v30

def fn {F : FTy → Type} [FloatOps F] (main_arg0 : FVec F S50000x64 .f32) (main_arg1 : FVec F S64x128 .f32) (main_arg2 : FVec F S128 .f32) (main_arg3 : FVec F S128x64 .f32) (main_arg4 : FVec F S64 .f32) (main_arg5 : IVec S800000 32) (main_arg6 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_v13 main_v16
-- ==== Kernel.lean ====
abbrev S50000x64 : Shape := ⟨2, ![50000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800768 : Shape := ⟨1, ![800768]⟩
abbrev S800768x1 : Shape := ⟨2, ![800768, 1]⟩
abbrev S1x800768 : Shape := ⟨2, ![1, 800768]⟩
abbrev S50000x1 : Shape := ⟨2, ![50000, 1]⟩
abbrev S50176x64 : Shape := ⟨2, ![50176, 64]⟩
abbrev S800768x64 : Shape := ⟨2, ![800768, 64]⟩
abbrev S2048x1 : Shape := ⟨2, ![2048, 1]⟩
abbrev S1024x64 : Shape := ⟨2, ![1024, 64]⟩
abbrev S2048x64 : Shape := ⟨2, ![2048, 64]⟩
abbrev S2048x1024 : Shape := ⟨2, ![2048, 1024]⟩
abbrev S1x2048 : Shape := ⟨2, ![1, 2048]⟩
abbrev S1024x2048 : Shape := ⟨2, ![1024, 2048]⟩
abbrev S50000x128 : Shape := ⟨2, ![50000, 128]⟩
abbrev S1x128 : Shape := ⟨2, ![1, 128]⟩
abbrev S1x64 : Shape := ⟨2, ![1, 64]⟩

abbrev nBuf : Space → Nat
  | .hbm => 74
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S64x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S_, .i32⟩
  | .hbm, ⟨33, _⟩ => ⟨S800768, .i32⟩
  | .hbm, ⟨34, _⟩ => ⟨S_, .i32⟩
  | .hbm, ⟨35, _⟩ => ⟨S_, .i32⟩
  | .hbm, ⟨36, _⟩ => ⟨S800768, .i32⟩
  | .hbm, ⟨37, _⟩ => ⟨S800768x1, .i32⟩
  | .hbm, ⟨38, _⟩ => ⟨S1x800768, .i32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S_, .i32⟩
  | .hbm, ⟨43, _⟩ => ⟨S_, .f32⟩
  | .hbm, ⟨44, _⟩ => ⟨S50176x64, .f32⟩
  | .hbm, ⟨45, _⟩ => ⟨S800768x64, .f32⟩
  | .hbm, ⟨46, _⟩ => ⟨S50176x64, .f32⟩
  | .hbm, ⟨47, _⟩ => ⟨S50000x64, .f32⟩
  | .hbm, ⟨48, _⟩ => ⟨S50000x128, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x64, .f32⟩
  | .hbm, ⟨62, _⟩ => ⟨S_, .i32⟩
  | .hbm, ⟨63, _⟩ => ⟨S_, .f32⟩
  | .hbm, ⟨64, _⟩ => ⟨S50176x64, .f32⟩
  | .hbm, ⟨65, _⟩ => ⟨S800768x64, .f32⟩
  | .hbm, ⟨66, _⟩ => ⟨S50176x64, .f32⟩
  | .hbm, ⟨67, _⟩ => ⟨S50000x64, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | .local _ .vmem, ⟨0, _⟩ => ⟨S2048x1, .i32⟩
  | .local _ .vmem, ⟨1, _⟩ => ⟨S2048x1, .i32⟩
  | .local _ .vmem, ⟨2, _⟩ => ⟨S1024x64, .f32⟩
  | .local _ .vmem, ⟨3, _⟩ => ⟨S1024x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S1x2048, .i32⟩
  | .local _ .vmem, ⟨8, _⟩ => ⟨S1x2048, .i32⟩
  | .local _ .vmem, ⟨9, _⟩ => ⟨S2048x64, .f32⟩
  | .local _ .vmem, ⟨10, _⟩ => ⟨S2048x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S2048x1, .i32⟩
  | .local _ .vmem, ⟨15, _⟩ => ⟨S2048x1, .i32⟩
  | .local _ .vmem, ⟨16, _⟩ => ⟨S1024x64, .f32⟩
  | .local _ .vmem, ⟨17, _⟩ => ⟨S1024x64, .f32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S1x2048, .i32⟩
  | .local _ .vmem, ⟨22, _⟩ => ⟨S1x2048, .i32⟩
  | .local _ .vmem, ⟨23, _⟩ => ⟨S2048x64, .f32⟩
  | .local _ .vmem, ⟨24, _⟩ => ⟨S2048x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_call2_v0 : Ref sig .tc := ⟨.hbm, 32, rfl⟩
abbrev main_v13 : Ref sig .tc := ⟨.hbm, 33, rfl⟩
abbrev main_c_6 : Ref sig .tc := ⟨.hbm, 34, rfl⟩
abbrev main_call3_v0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_7 : Ref sig .tc := ⟨.hbm, 42, rfl⟩
abbrev main_call4_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call5_cst : Ref sig .tc := ⟨.hbm, 55, rfl⟩
abbrev main_call5_v0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_call6_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨2, ![391, 49], ![false, false]⟩

def k0_cond2 (i : grid0.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![49, 391], ![false, false]⟩

def k1_cond2 (i : grid1.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![391, 49], ![false, false]⟩

def k2_cond2 (i : grid2.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![49, 391], ![false, false]⟩

def k3_cond2 (i : grid3.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x2048 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  pads_S800000_S800768_07680 : S800000.Pads (![0] : Fin 1 → Nat) ![768] ![0] S800768
  h_S_ : 0 < S_.numel
  shapeCasts_S800768_S800768x1 : S800768.ShapeCasts S800768x1
  shapeCasts_S800768_S1x800768 : S800768.ShapeCasts S1x800768
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  pads_S50000x64_S50176x64_01760_000 : S50000x64.Pads (![0, 0] : Fin 2 → Nat) ![176, 0] ![0, 0] S50176x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1024_d1_w32 : S2048x1024.Iotas .tc 32 [1]
  broadcasts_S2048x1_S2048x1024 : S2048x1.Broadcasts S2048x1024
  natLt_1_32 : 1 < 32
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S1024x2048_d0_w32 : S1024x2048.Iotas .tc 32 [0]
  broadcasts_S1x2048_S1024x2048 : S1x2048.Broadcasts S1024x2048
  slices_S50176x64_S50000x64_0_0 : S50176x64.Slices ![0, 0] S50000x64
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S2048x1024_S1024x64_S2048x64_1_0_0_1_n_n_wf : DotDims.WF S2048x1024 S1024x64 S2048x64 [1] [0] [0] [1] [] []
  dot_S1024x2048_S2048x64_S1024x64_1_0_0_1_n_n_wf : DotDims.WF S1024x2048 S2048x64 S1024x64 [1] [0] [0] [1] [] []
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S800768x1.size a
  hwx0_0 : ∀ i : grid0.Coords, EltTy.bits .i32 = 32 ∨ (Rect.block (s := S800768x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S50176x64.size a
  hwx0_1 : ∀ i : grid0.Coords, EltTy.bits .f32 = 32 ∨ (Rect.block (s := S50176x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S800768x64.size a
  hwx0_2 : ∀ i : grid0.Coords, EltTy.bits .f32 = 32 ∨ (Rect.block (s := S800768x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x800768.size a
  hwx1_0 : ∀ i : grid1.Coords, EltTy.bits .i32 = 32 ∨ (Rect.block (s := S1x800768) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S800768x64.size a
  hwx1_1 : ∀ i : grid1.Coords, EltTy.bits .f32 = 32 ∨ (Rect.block (s := S800768x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S50176x64.size a
  hwx1_2 : ∀ i : grid1.Coords, EltTy.bits .f32 = 32 ∨ (Rect.block (s := S50176x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1.size a ≤ S800768x1.size a
  hwx2_0 : ∀ i : grid2.Coords, EltTy.bits .i32 = 32 ∨ (Rect.block (s := S800768x1) S2048x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S50176x64.size a
  hwx2_1 : ∀ i : grid2.Coords, EltTy.bits .f32 = 32 ∨ (Rect.block (s := S50176x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S800768x64.size a
  hwx2_2 : ∀ i : grid2.Coords, EltTy.bits .f32 = 32 ∨ (Rect.block (s := S800768x64) S2048x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x800768.size a
  hwx3_0 : ∀ i : grid3.Coords, EltTy.bits .i32 = 32 ∨ (Rect.block (s := S1x800768) S1x2048.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S800768x64.size a
  hwx3_1 : ∀ i : grid3.Coords, EltTy.bits .f32 = 32 ∨ (Rect.block (s := S800768x64) S2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S50176x64.size a
  hwx3_2 : ∀ i : grid3.Coords, EltTy.bits .f32 = 32 ∨ (Rect.block (s := S50176x64) S1024x64.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

abbrev win0_0 : Pipeline.Window sig grid0 :=
  Pipeline.Window.ofSpec (Memref.whole main_v15) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v16) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v15) S2048x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2048x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v16) S1x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1024x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S50000x64 : Shape := ⟨2, ![50000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S50000x128 : Shape := ⟨2, ![50000, 128]⟩
abbrev S1x128 : Shape := ⟨2, ![1, 128]⟩
abbrev S1x64 : Shape := ⟨2, ![1, 64]⟩

abbrev nBuf : Space → Nat
  | .hbm => 80
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S50000x128, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S50000x1, .f32⟩
  | .hbm, ⟨75, _⟩ => ⟨S50000x64, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.BRuns0.lean ====
import proofs.«406331_j48928267436271_1_alg».proof.Proof.Gen.Kernel.Launch
import proofs.«406331_j48928267436271_1_alg».proof.Proof.Gen.Kernel.Skeleton
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ (Pipeline.UD sig nD τ) ℕ

abbrev condA0 (i : grid0.Coords) : Prop := (Scalar.cmpi .ne (Scalar.extui (Scalar.cmpi .eq (BitVec.ofNat 32 (i 1).val) 0#32)) 0#32) = 1#1
abbrev condB0 (i : grid0.Coords) : Prop := k0_cond2 i = 1#1

theorem zeros2 : (![0, 0] : Fin 2 → ℕ) = fun _ => 0 := by funext a; fin_cases a <;> rfl

/-- In every case the last store into a block covers it, so the block reads back as that store's payload; a block not stored into keeps what it held. -/
theorem run0 (c : Dev nD) (E : Set ℕ) (i : grid0.Coords)
    (arg2 : Memref sig .tc .vmem S2048x1 .i32) (harg2 : arg2.IsWhole) (arg3 : Memref sig .tc .vmem S1024x64 .f32) (harg3 : arg3.IsWhole)
    (arg4 : Memref sig .tc .vmem S2048x64 .f32) (harg4 : arg4.IsWhole) (arg5 : Memref sig .tc .vmem S2048x64 .f32) (harg5 : arg5.IsWhole)
    (hAB : ¬ (condA0 i ∧ condB0 i))
    (x0 : Vec F S2048x1 .i32) (x1 : Vec F S1024x64 .f32) (s y4 : Vec F S2048x64 .f32) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare s
        ∗ (iprop(owns (c : Thread nD τ) arg2 fullShare x0 ∗ owns (c : Thread nD τ) arg3 fullShare x1
            ∗ owns (c : Thread nD τ) arg4 fullShare (if condB0 i then k0_pay2 i x0 x1 (if condA0 i then k0_pay1 else s) else y4)
            ∗ owns (c : Thread nD τ) arg5 fullShare (k0_pay2 i x0 x1 (if condA0 i then k0_pay1 else s))) -∗ K ⟨⟩))
      ⊢ wp frame (wpE (defs₀ (F := F)) Variants.none c none) E (cc0__gather_kernel i arg2 harg2 arg3 harg3 arg4 harg4 arg5 harg5) K := by
  unfold owns
  iintro ⟨⟨%f0, %h0, H0⟩, ⟨%f1, %h1, H1⟩, ⟨%f4, %h4, H4⟩, ⟨%f5, %h5, H5⟩, Hk⟩
  split_ifs
  · exact absurd ⟨‹_›, ‹_›⟩ hAB
  all_goals
    simp only [cc0__gather_kernel_eq_skeleton]; unfold cc0__gather_kernel_skel
    sl_exec
    sl_step
    iapply Hk
    isplitl [H0]; swap; isplitl [H1]; swap; isplitl [H4]
    all_goals
      iexists _; isplitr; swap; iassumption
      ipureintro
      first
      | with_reducible assumption
      | sl_unfold_words
        rw [View.read_writes_eq_canon, View.canon_cons_unit_zero zeros2]
        · simp only [View.readAt_eq_ld, h0, h1, h5, View.ld_unit_zero (S := S2048x1) zeros2, View.ld_unit_zero (S := S1024x64) zeros2, View.ld_unit_zero (S := S2048x64) zeros2, View.readCov_unit_zero (S := S2048x64) _ zeros2]
        · exact fun y => ⟨_, List.mem_cons_self, View.mem_set_unit_zero zeros2 Facts₀.inb_S2048x64_S2048x64_0_0 y⟩

end Cert.Kernel.Hand

end
-- ==== Proof.LibRunFold.lean ====
import Idealize.ShloMosaic.Lib.Pipeline.Kit
import Idealize.ShloMosaic.Lib.StableHlo.Predicate

noncomputable section

namespace Cert.LibRunFold

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

theorem toNat_small (n : ℕ) (h : n < 2 ^ 32) : (BitVec.ofNat 32 n).toNat = n := by
  rw [BitVec.toNat_ofNat]; exact Nat.mod_eq_of_lt h

/-- The widened test word of two words is set exactly when the numbers they stand for are equal. -/
theorem eq_word (j k : ℕ) (hj : j < 2 ^ 32) (hk : k < 2 ^ 32) :
    Scalar.cmpi .ne (Scalar.extui (Scalar.cmpi .eq (BitVec.ofNat 32 j) (BitVec.ofNat 32 k))) 0#32 = 1#1 ↔ j = k := by
  have hb : ∀ b : BitVec 1, Scalar.cmpi .ne (Scalar.extui b) 0#32 = 1#1 ↔ b = 1#1 := by decide
  rw [hb]
  show IntOp.cmpi .eq _ _ = 1#1 ↔ _
  rw [StableHlo.Predicate.cmpi_eq_iff]
  exact ⟨fun h => by have := congrArg BitVec.toNat h; rwa [toNat_small j hj, toNat_small k hk] at this, fun h => h ▸ rfl⟩

/-- The quotient by `p` changes from `t` to `t + 1` exactly when `t` is the last of its run of `p`. -/
theorem succ_div_ne_iff {p t : ℕ} (hp : 0 < p) : (t + 1) / p ≠ t / p ↔ t % p + 1 = p := by
  have hr := Nat.mod_lt t hp
  rw [show t + 1 = p * (t / p) + (t % p + 1) from by have := Nat.div_add_mod t p; omega, Nat.mul_add_div hp]
  rcases Nat.lt_or_ge (t % p + 1) p with h | h
  · rw [Nat.div_eq_of_lt h]; omega
  · rw [show t % p + 1 = p from by omega, Nat.div_self hp]; omega

/-- Points counted in runs of `p`, a block index that is the run's number: the index changes after point `t`, or the points end there, exactly at a run's last point. -/
theorem run_end_iff {p N : ℕ} (hp : 0 < p) (hN : p ∣ N) (idx : Fin N → Fin 2 → ℕ) (hidx : ∀ t, idx t = ![t.val / p, 0]) (t : Fin N) :
    (t.val + 1 = N ∨ ∃ h : t.val + 1 < N, idx ⟨t.val + 1, h⟩ ≠ idx t) ↔ t.val % p + 1 = p := by
  have ht := t.isLt
  have key := succ_div_ne_iff (t := t.val) hp
  constructor
  · rintro (h | ⟨h, hne⟩)
    · obtain ⟨k, hk⟩ := hN
      refine key.mp fun he => ?_
      have h3 : (t.val + 1) / p = k := by rw [h, hk]; exact Nat.mul_div_cancel_left k hp
      have h2 := Nat.div_mul_le_self t.val p
      rw [← he, h3, Nat.mul_comm] at h2
      omega
    · rw [hidx, hidx] at hne
      exact key.mp fun he => hne (by show ![(t.val + 1) / p, 0] = _; rw [he])
  · intro h
    by_cases hl : t.val + 1 = N
    · exact Or.inl hl
    · refine Or.inr ⟨by omega, ?_⟩
      rw [hidx, hidx]
      exact fun he => key.mpr h (by simpa using congrFun he 0)

section Fold

variable {α : Type} {N : ℕ}

/-- What is carried along the points: `g` at each point on what the point before left, on `z` where a run of `p` points starts. -/
def fold (p : ℕ) (z : α) (g : (n : ℕ) → n < N → α → α) : (n : ℕ) → n < N → α
  | 0, h => g 0 h z
  | n + 1, h => g (n + 1) h (if (n + 1) % p = 0 then z else fold p z g n (Nat.lt_of_succ_lt h))

theorem fold_first (p : ℕ) (z : α) (g : (n : ℕ) → n < N → α → α) (n : ℕ) (h : n < N) (h0 : n % p = 0) :
    fold p z g n h = g n h z := by
  cases n with
  | zero => rfl
  | succ n => exact congrArg (g _ h) (if_pos h0)

theorem fold_next (p : ℕ) (z : α) (g : (n : ℕ) → n < N → α → α) (n : ℕ) (h : n < N) (h0 : ¬ n % p = 0) :
    fold p z g n h = g n h (fold p z g (n - 1) (Nat.lt_of_le_of_lt (Nat.sub_le _ _) h)) := by
  cases n with
  | zero => exact absurd (Nat.zero_mod _) h0
  | succ n => exact congrArg (g _ h) (if_neg h0)

end Fold

section Carried

variable {nD : Nat} {τ : Topo} {sig : RefSig} {Val : EltTy → Type} {U : Type} [URA U]

local notation "𝕄" => MT nD τ sig Unit Val ℕ U ℕ

variable {N : ℕ} (c : Dev nD) {sp : Space} {sh : Shape} {e : EltTy} (M : Memref sig .tc sp sh e)

/-- The carried buffer at `s`, beside `Rest`. -/
abbrev named (Rest : sProp 𝕄) (s : sh.Idx → Val e) : sProp 𝕄 := iprop((owns (c : Thread nD τ) M fullShare s ∗ Rest) ∗ ∃ r, prngReg c r)

/-- The same with the buffer at some contents. -/
abbrev opened (Rest : sProp 𝕄) : sProp 𝕄 := iprop(((∃ d, owns (c : Thread nD τ) M fullShare d) ∗ Rest) ∗ ∃ r, prngReg c r)

/-- Before point `n`: `Pin` at the first point; afterwards the carried buffer at what the point before left. -/
def carried (Pin Rest : sProp 𝕄) (acc : (n : ℕ) → n < N → sh.Idx → Val e) : (n : ℕ) → n ≤ N → sProp 𝕄
  | 0, _ => Pin
  | n + 1, hn => named c M Rest (acc n hn)

/-- At every point the carried buffer is there at SOME contents, which are the point before's wherever there is one. -/
theorem carried_named (Pin Rest : sProp 𝕄) (acc : (n : ℕ) → n < N → sh.Idx → Val e) (h0 : Pin ⊢ opened c M Rest) (n : ℕ) (h : n ≤ N) :
    carried c M Pin Rest acc n h ⊢ iprop(∃ s, ⌜∀ hz : n ≠ 0, s = acc (n - 1) (by omega)⌝ ∗ named c M Rest s) := by
  cases n with
  | zero =>
    refine h0.trans ?_
    iintro ⟨⟨⟨%d, Ha⟩, Ho⟩, Hg⟩
    iexists d; isplitr; · ipureintro; exact fun hz => absurd rfl hz
    isplitl [Ha Ho]
    · isplitl [Ha]; · iexact Ha
      iexact Ho
    iexact Hg
  | succ n =>
    show named c M Rest (acc n h) ⊢ _
    iintro H
    iexists (acc n h); isplitr; · ipureintro; exact fun _ => rfl
    iexact H

theorem carried_forget (Pin Rest : sProp 𝕄) (acc : (n : ℕ) → n < N → sh.Idx → Val e) (h0 : Pin ⊢ opened c M Rest) (n : ℕ) (h : n ≤ N) :
    carried c M Pin Rest acc n h ⊢ opened c M Rest := by
  refine (carried_named c M Pin Rest acc h0 n h).trans ?_
  iintro ⟨%s, -, ⟨Ha, Ho⟩, Hg⟩
  isplitl [Ha Ho]
  · isplitl [Ha]; · iexists _; iexact Ha
    iexact Ho
  iexact Hg

end Carried

end Cert.LibRunFold

end
-- ==== Proof.BData0.lean ====
import proofs.«406331_j48928267436271_1_alg».proof.Proof.Gen.Kernel.Launch
import proofs.«406331_j48928267436271_1_alg».proof.Proof.Gen.Kernel.Skeleton
import proofs.«406331_j48928267436271_1_alg».proof.Proof.BRuns0
import proofs.«406331_j48928267436271_1_alg».proof.Proof.LibRunFold

noncomputable section

namespace Cert.Kernel.Hand

open Cert.Kernel Cert.Kernel.Gen Cert.LibRunFold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xw0 (c : Dev nD) (t : Fin cfg0.N) : Vec F S2048x1 .i32 := iblk0 V c 0 t
abbrev xt0 (c : Dev nD) (t : Fin cfg0.N) : Vec F S1024x64 .f32 := iblk0 V c 1 t

theorem N0_val : cfg0.N = 19159 := N_0
theorem lt0 (t : Fin cfg0.N) : t.val < 19159 := lt_of_lt_of_eq t.isLt N0_val

theorem coordIn0 (t : Fin cfg0.N) : ((grid0.coords t) 1).val = t.val % 49 := by
  show t.val / grid0.stride 1 % 49 = _
  rw [show grid0.stride 1 = 1 from by decide, Nat.div_one]

theorem coordOut0 (t : Fin cfg0.N) : ((grid0.coords t) 0).val = t.val / 49 := by
  show t.val / grid0.stride 0 % 391 = _
  rw [show grid0.stride 0 = 49 from by decide]
  exact Nat.mod_eq_of_lt (by have := lt0 t; omega)

theorem index0_0 (t : Fin cfg0.N) : (cfg0.win 0).index t = ![t.val / 49, 0] := by
  show cc0_transform_0 (grid0.coords t) = _
  unfold cc0_transform_0; dsimp only
  rw [coordOut0, toNat_small (t.val / 49) (by have := lt0 t; omega)]
  rfl
theorem index0_1 (t : Fin cfg0.N) : (cfg0.win 1).index t = ![t.val % 49, 0] := by
  show cc0_transform_1 (grid0.coords t) = _
  unfold cc0_transform_1; dsimp only
  rw [coordIn0, toNat_small (t.val % 49) (by have := lt0 t; omega)]
  rfl
theorem index0_2 (t : Fin cfg0.N) : (cfg0.win 2).index t = ![t.val / 49, 0] := by
  show cc0_transform_2 (grid0.coords t) = _
  unfold cc0_transform_2; dsimp only
  rw [coordOut0, toNat_small (t.val / 49) (by have := lt0 t; omega)]
  rfl

theorem flush0_2_iff (t : Fin cfg0.N) : (cfg0.win 2).flush t = true ↔ t.val % 49 = 48 := by
  unfold Pipeline.Window.flush
  rw [show (cfg0.win 2).isOut = true from rfl, Bool.true_and, Bool.or_eq_true, decide_eq_true_eq, decide_eq_true_eq]
  exact (run_end_iff (by decide) ⟨391, N_0⟩ _ index0_2 t).trans (by omega)

theorem hcondA0 (t : Fin cfg0.N) : condA0 (grid0.coords t) ↔ t.val % 49 = 0 := by
  unfold condA0; rw [coordIn0]; exact eq_word _ 0 (by omega) (by omega)

theorem hcondB0 (t : Fin cfg0.N) : condB0 (grid0.coords t) ↔ t.val % 49 = 48 := by
  unfold condB0 k0_cond2; dsimp only; rw [coordIn0]; exact eq_word _ 48 (by omega) (by omega)

abbrev ms0_0 (t : Fin cfg0.N) : Memref sig .tc .vmem S2048x1 .i32 := win0_0.stage (cfg0.slots t 0)
abbrev ms0_1 (t : Fin cfg0.N) : Memref sig .tc .vmem S1024x64 .f32 := win0_1.stage (cfg0.slots t 1)
abbrev ms0_2 (t : Fin cfg0.N) : Memref sig .tc .vmem S2048x64 .f32 := win0_2.stage (cfg0.slots t 2)
abbrev scM0 : Memref sig .tc .vmem S2048x64 .f32 := Memref.whole cc0_scratch0

/-- The accumulator after each point: the body's stored value over the zero vector where a run of 49 starts, over what the point before left elsewhere. -/
def acc0 (c : Dev nD) : (n : ℕ) → n < cfg0.N → Vec F S2048x64 .f32 :=
  fold 49 k0_pay1 fun n h => k0_pay2 (grid0.coords ⟨n, h⟩) (xw0 V c ⟨n, h⟩) (xt0 V c ⟨n, h⟩)

theorem acc0_first (c : Dev nD) (t : Fin cfg0.N) (h : t.val % 49 = 0) :
    acc0 V c t.val t.isLt = k0_pay2 (grid0.coords t) (xw0 V c t) (xt0 V c t) k0_pay1 := fold_first _ _ _ _ _ h

theorem acc0_next (c : Dev nD) (t : Fin cfg0.N) (h : ¬ t.val % 49 = 0) :
    acc0 V c t.val t.isLt = k0_pay2 (grid0.coords t) (xw0 V c t) (xt0 V c t)
      (acc0 V c (t.val - 1) (Nat.lt_of_le_of_lt (Nat.sub_le _ _) t.isLt)) := fold_next _ _ _ _ _ h

abbrev others0 (c : Dev nD) : sProp 𝕄 :=
  Pipeline.scopedRestBut (Ix := Unit) (Name := ℕ) (U := Pipeline.UD sig nD τ) (Lvl := ℕ) (Val := Elt F) spec0 c [cc0_scratch0]

theorem PhiA0_eq (c : Dev nD) :
    (Pipeline.ΦA spec0 c : sProp 𝕄)
      = opened c scM0 (others0 (F := F) c) := by
  unfold Pipeline.ΦA opened
  rw [Pipeline.scopedRest_split_of_list spec0 c [cc0_scratch0] (by decide) (by decide)]
  simp only [scM0, owns_whole]; rfl

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := carried c scM0 (Pipeline.ΦA spec0 c) (others0 (F := F) c) (acc0 V c) t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem leaves0_2 (c : Dev nD) (t : Fin cfg0.N) (d) :
    owns (c : Thread nD τ) (ms0_2 t) fullShare (if condB0 (grid0.coords t) then acc0 V c t.val t.isLt else (dat0 V c).before 2 t d)
      ⊢ (dat0 V c).leavesExact 2 t := by
  by_cases hB : condB0 (grid0.coords t)
  · rw [if_pos hB, show (dat0 V c).leavesExact 2 t = owns (c : Thread nD τ) (ms0_2 t) fullShare ((dat0 V c).after 2 t) from by
      unfold Dat.leavesExact
      rw [show cfg0.idle 2 (grid0.coords t) = false from by
        show (!(k0_cond2 (grid0.coords t) == 1#1)) = false
        rw [Bool.not_eq_false', beq_iff_eq]; exact hB], after0_2]
  · rw [if_neg hB, Dat.leavesExact_idle (dat0 V c) 2 t
      (by show (!(k0_cond2 (grid0.coords t) == 1#1)) = true
          rw [Bool.not_eq_true', beq_eq_false_iff_ne]; exact hB)
      (by rw [Bool.eq_false_iff]; exact fun hf => hB ((hcondB0 t).mpr ((flush0_2_iff t).mp hf)))]
    iintro H; iexists _; iexact H

/-- One step of the accumulator, whichever case the point is in. -/
theorem accStep0 (c : Dev nD) (t : Fin cfg0.N) (s : Vec F S2048x64 .f32)
    (hs : ∀ hz : t.val ≠ 0, s = acc0 V c (t.val - 1) (by have := t.isLt; omega)) :
    k0_pay2 (grid0.coords t) (xw0 V c t) (xt0 V c t) (if condA0 (grid0.coords t) then k0_pay1 else s) = acc0 V c t.val t.isLt := by
  by_cases h0 : t.val % 49 = 0
  · rw [if_pos ((hcondA0 t).mpr h0), acc0_first V c t h0]
  · rw [if_neg (fun h => h0 ((hcondA0 t).mp h)), acc0_next V c t h0, hs fun hz => h0 (by rw [hz])]

abbrev bodyAt0 (t : Fin cfg0.N) : Prog (TpuEff nD τ sig (Elt F) Λ₀ .tc) PUnit :=
  cc0__gather_kernel (grid0.coords t) (ms0_0 t) (hstage0_0 ((cfg0.slots t 0).cast nbuf0_0)) (ms0_1 t) (hstage0_1 ((cfg0.slots t 1).cast nbuf0_1))
    (ms0_2 t) (hstage0_2 ((cfg0.slots t 2).cast nbuf0_2)) scM0 (Memref.isWhole_whole _)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem Phi0_castSucc (c : Dev nD) (t : Fin cfg0.N) :
    (dat0 V c).Φ t.castSucc = carried c scM0 (Pipeline.ΦA spec0 c) (others0 (F := F) c) (acc0 V c) t.val (Nat.le_of_lt t.isLt) := by
  dsimp only [dat0]; simp only [Fin.coe_castSucc]

theorem Phi0_succ (c : Dev nD) (t : Fin cfg0.N) :
    (dat0 V c).Φ t.succ = named c scM0 (others0 (F := F) c) (acc0 V c t.val t.isLt) := rfl

theorem leaves0_0 (c : Dev nD) (t : Fin cfg0.N) :
    (dat0 V c).leavesExact 0 t = owns (c : Thread nD τ) (ms0_0 t) fullShare (iblk0 V c 0 t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (ms0_1 t) fullShare (iblk0 V c 1 t) := by
  unfold Dat.leavesExact; rw [show cfg0.idle 1 (cfg0.grid.coords t) = false from rfl, after0_1]

/-- The body at any point: the invariant hands it the accumulator at what the point before left (at anything where there is none) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl, Phi0_succ, Phi0_castSucc, leaves0_0, leaves0_1]
  iintro ⟨HPhi, Ho, ⟨%d0, H0⟩, ⟨%d1, H1⟩, ⟨%d2, H2⟩⟩
  ihave HPhi' := (carried_named c scM0 _ _ (acc0 V c) (Entails.of_eq (PhiA0_eq c)) t.val (Nat.le_of_lt t.isLt)) $$ HPhi
  icases HPhi' with ⟨%s, %hs, ⟨HS, Hoth⟩, Hg⟩
  iapply (run0 c Set.univ _ _ _ _ _ _ _ _ _ (fun h => by have := (hcondA0 t).mp h.1; have := (hcondB0 t).mp h.2; omega)
    (xw0 V c t) (xt0 V c t) s _ _)
  isplitl [H0]; · iexact H0
  isplitl [H1]; · iexact H1
  isplitl [H2]; · iexact H2
  isplitl [HS]; · iexact HS
  rw [accStep0 V c t s hs]
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves0_2 V c t d2); iexact H2

theorem body_obligation0 (c : Dev nD) : BodyObligation (dat0 (F := F) V c) (defs₀ (F := F)) Variants.none () Set.univ := fun t => by
  rw [bigSep_W0, bigSep_W0]
  exact sound_body0 V c t

theorem hout0 (c : Dev nD) : (dat0 V c).Φ (Fin.last cfg0.N) ⊢ Pipeline.ΦA spec0 c :=
  (carried_forget c scM0 _ _ (acc0 V c) (Entails.of_eq (PhiA0_eq c)) (Fin.last cfg0.N).val (Nat.le_of_lt_succ (Fin.last cfg0.N).isLt)).trans
    (Entails.of_eq (PhiA0_eq c).symm)

end Cert.Kernel.Hand

end
-- ==== Proof.BRuns1.lean ====
import proofs.«406331_j48928267436271_1_alg».proof.Proof.Gen.Kernel.Launch
import proofs.«406331_j48928267436271_1_alg».proof.Proof.Gen.Kernel.Skeleton
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ (Pipeline.UD sig nD τ) ℕ

abbrev condA1 (i : grid1.Coords) : Prop := (Scalar.cmpi .ne (Scalar.extui (Scalar.cmpi .eq (BitVec.ofNat 32 (i 1).val) 0#32)) 0#32) = 1#1
abbrev condB1 (i : grid1.Coords) : Prop := k1_cond2 i = 1#1

theorem zeros2 : (![0, 0] : Fin 2 → ℕ) = fun _ => 0 := by funext a; fin_cases a <;> rfl

/-- In every case the last store into a block covers it, so the block reads back as that store's payload; a block not stored into keeps what it held. -/
theorem run1 (c : Dev nD) (E : Set ℕ) (i : grid1.Coords)
    (arg2 : Memref sig .tc .vmem S1x2048 .i32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1024x64 .f32) (harg5 : arg5.IsWhole)
    (hAB : ¬ (condA1 i ∧ condB1 i))
    (x0 : Vec F S1x2048 .i32) (x1 : Vec F S2048x64 .f32) (s y4 : Vec F S1024x64 .f32) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare s
        ∗ (iprop(owns (c : Thread nD τ) arg2 fullShare x0 ∗ owns (c : Thread nD τ) arg3 fullShare x1
            ∗ owns (c : Thread nD τ) arg4 fullShare (if condB1 i then k1_pay2 i x0 x1 (if condA1 i then k1_pay1 else s) else y4)
            ∗ owns (c : Thread nD τ) arg5 fullShare (k1_pay2 i x0 x1 (if condA1 i then k1_pay1 else s))) -∗ K ⟨⟩))
      ⊢ wp frame (wpE (defs₀ (F := F)) Variants.none c none) E (cc1__scatter_kernel i arg2 harg2 arg3 harg3 arg4 harg4 arg5 harg5) K := by
  unfold owns
  iintro ⟨⟨%f0, %h0, H0⟩, ⟨%f1, %h1, H1⟩, ⟨%f4, %h4, H4⟩, ⟨%f5, %h5, H5⟩, Hk⟩
  split_ifs
  · exact absurd ⟨‹_›, ‹_›⟩ hAB
  all_goals
    simp only [cc1__scatter_kernel_eq_skeleton]; unfold cc1__scatter_kernel_skel
    sl_exec
    sl_step
    iapply Hk
    isplitl [H0]; swap; isplitl [H1]; swap; isplitl [H4]
    all_goals
      iexists _; isplitr; swap; iassumption
      ipureintro
      first
      | with_reducible assumption
      | sl_unfold_words
        rw [View.read_writes_eq_canon, View.canon_cons_unit_zero zeros2]
        · simp only [View.readAt_eq_ld, h0, h1, h5, View.ld_unit_zero (S := S1x2048) zeros2, View.ld_unit_zero (S := S2048x64) zeros2, View.ld_unit_zero (S := S1024x64) zeros2, View.readCov_unit_zero (S := S1024x64) _ zeros2]
        · exact fun y => ⟨_, List.mem_cons_self, View.mem_set_unit_zero zeros2 Facts₀.inb_S1024x64_S1024x64_0_0 y⟩

end Cert.Kernel.Hand

end
-- ==== Proof.BData1.lean ====
import proofs.«406331_j48928267436271_1_alg».proof.Proof.Gen.Kernel.Launch
import proofs.«406331_j48928267436271_1_alg».proof.Proof.Gen.Kernel.Skeleton
import proofs.«406331_j48928267436271_1_alg».proof.Proof.BRuns1
import proofs.«406331_j48928267436271_1_alg».proof.Proof.LibRunFold

noncomputable section

namespace Cert.Kernel.Hand

open Cert.Kernel Cert.Kernel.Gen Cert.LibRunFold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xw1 (c : Dev nD) (t : Fin cfg1.N) : Vec F S1x2048 .i32 := iblk1 V c 0 t
abbrev xt1 (c : Dev nD) (t : Fin cfg1.N) : Vec F S2048x64 .f32 := iblk1 V c 1 t

theorem N1_val : cfg1.N = 19159 := N_1
theorem lt1 (t : Fin cfg1.N) : t.val < 19159 := lt_of_lt_of_eq t.isLt N1_val

theorem coordIn1 (t : Fin cfg1.N) : ((grid1.coords t) 1).val = t.val % 391 := by
  show t.val / grid1.stride 1 % 391 = _
  rw [show grid1.stride 1 = 1 from by decide, Nat.div_one]

theorem coordOut1 (t : Fin cfg1.N) : ((grid1.coords t) 0).val = t.val / 391 := by
  show t.val / grid1.stride 0 % 49 = _
  rw [show grid1.stride 0 = 391 from by decide]
  exact Nat.mod_eq_of_lt (by have := lt1 t; omega)

theorem index1_0 (t : Fin cfg1.N) : (cfg1.win 0).index t = ![0, t.val % 391] := by
  show cc1_transform_0 (grid1.coords t) = _
  unfold cc1_transform_0; dsimp only
  rw [coordIn1, toNat_small (t.val % 391) (by have := lt1 t; omega)]
  rfl
theorem index1_1 (t : Fin cfg1.N) : (cfg1.win 1).index t = ![t.val % 391, 0] := by
  show cc1_transform_1 (grid1.coords t) = _
  unfold cc1_transform_1; dsimp only
  rw [coordIn1, toNat_small (t.val % 391) (by have := lt1 t; omega)]
  rfl
theorem index1_2 (t : Fin cfg1.N) : (cfg1.win 2).index t = ![t.val / 391, 0] := by
  show cc1_transform_2 (grid1.coords t) = _
  unfold cc1_transform_2; dsimp only
  rw [coordOut1, toNat_small (t.val / 391) (by have := lt1 t; omega)]
  rfl

theorem flush1_2_iff (t : Fin cfg1.N) : (cfg1.win 2).flush t = true ↔ t.val % 391 = 390 := by
  unfold Pipeline.Window.flush
  rw [show (cfg1.win 2).isOut = true from rfl, Bool.true_and, Bool.or_eq_true, decide_eq_true_eq, decide_eq_true_eq]
  exact (run_end_iff (by decide) ⟨49, N_1⟩ _ index1_2 t).trans (by omega)

theorem hcondA1 (t : Fin cfg1.N) : condA1 (grid1.coords t) ↔ t.val % 391 = 0 := by
  unfold condA1; rw [coordIn1]; exact eq_word _ 0 (by omega) (by omega)

theorem hcondB1 (t : Fin cfg1.N) : condB1 (grid1.coords t) ↔ t.val % 391 = 390 := by
  unfold condB1 k1_cond2; dsimp only; rw [coordIn1]; exact eq_word _ 390 (by omega) (by omega)

abbrev ms1_0 (t : Fin cfg1.N) : Memref sig .tc .vmem S1x2048 .i32 := win1_0.stage (cfg1.slots t 0)
abbrev ms1_1 (t : Fin cfg1.N) : Memref sig .tc .vmem S2048x64 .f32 := win1_1.stage (cfg1.slots t 1)
abbrev ms1_2 (t : Fin cfg1.N) : Memref sig .tc .vmem S1024x64 .f32 := win1_2.stage (cfg1.slots t 2)
abbrev scM1 : Memref sig .tc .vmem S1024x64 .f32 := Memref.whole cc1_scratch0

/-- The accumulator after each point: the body's stored value over the zero vector where a run of 391 starts, over what the point before left elsewhere. -/
def acc1 (c : Dev nD) : (n : ℕ) → n < cfg1.N → Vec F S1024x64 .f32 :=
  fold 391 k1_pay1 fun n h => k1_pay2 (grid1.coords ⟨n, h⟩) (xw1 V c ⟨n, h⟩) (xt1 V c ⟨n, h⟩)

theorem acc1_first (c : Dev nD) (t : Fin cfg1.N) (h : t.val % 391 = 0) :
    acc1 V c t.val t.isLt = k1_pay2 (grid1.coords t) (xw1 V c t) (xt1 V c t) k1_pay1 := fold_first _ _ _ _ _ h

theorem acc1_next (c : Dev nD) (t : Fin cfg1.N) (h : ¬ t.val % 391 = 0) :
    acc1 V c t.val t.isLt = k1_pay2 (grid1.coords t) (xw1 V c t) (xt1 V c t)
      (acc1 V c (t.val - 1) (Nat.lt_of_le_of_lt (Nat.sub_le _ _) t.isLt)) := fold_next _ _ _ _ _ h

abbrev others1 (c : Dev nD) : sProp 𝕄 :=
  Pipeline.scopedRestBut (Ix := Unit) (Name := ℕ) (U := Pipeline.UD sig nD τ) (Lvl := ℕ) (Val := Elt F) spec1 c [cc1_scratch0]

theorem PhiA1_eq (c : Dev nD) :
    (Pipeline.ΦA spec1 c : sProp 𝕄)
      = opened c scM1 (others1 (F := F) c) := by
  unfold Pipeline.ΦA opened
  rw [Pipeline.scopedRest_split_of_list spec1 c [cc1_scratch0] (by decide) (by decide)]
  simp only [scM1, owns_whole]; rfl

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := carried c scM1 (Pipeline.ΦA spec1 c) (others1 (F := F) c) (acc1 V c) t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem leaves1_2 (c : Dev nD) (t : Fin cfg1.N) (d) :
    owns (c : Thread nD τ) (ms1_2 t) fullShare (if condB1 (grid1.coords t) then acc1 V c t.val t.isLt else (dat1 V c).before 2 t d)
      ⊢ (dat1 V c).leavesExact 2 t := by
  by_cases hB : condB1 (grid1.coords t)
  · rw [if_pos hB, show (dat1 V c).leavesExact 2 t = owns (c : Thread nD τ) (ms1_2 t) fullShare ((dat1 V c).after 2 t) from by
      unfold Dat.leavesExact
      rw [show cfg1.idle 2 (grid1.coords t) = false from by
        show (!(k1_cond2 (grid1.coords t) == 1#1)) = false
        rw [Bool.not_eq_false', beq_iff_eq]; exact hB], after1_2]
  · rw [if_neg hB, Dat.leavesExact_idle (dat1 V c) 2 t
      (by show (!(k1_cond2 (grid1.coords t) == 1#1)) = true
          rw [Bool.not_eq_true', beq_eq_false_iff_ne]; exact hB)
      (by rw [Bool.eq_false_iff]; exact fun hf => hB ((hcondB1 t).mpr ((flush1_2_iff t).mp hf)))]
    iintro H; iexists _; iexact H

/-- One step of the accumulator, whichever case the point is in. -/
theorem accStep1 (c : Dev nD) (t : Fin cfg1.N) (s : Vec F S1024x64 .f32)
    (hs : ∀ hz : t.val ≠ 0, s = acc1 V c (t.val - 1) (by have := t.isLt; omega)) :
    k1_pay2 (grid1.coords t) (xw1 V c t) (xt1 V c t) (if condA1 (grid1.coords t) then k1_pay1 else s) = acc1 V c t.val t.isLt := by
  by_cases h0 : t.val % 391 = 0
  · rw [if_pos ((hcondA1 t).mpr h0), acc1_first V c t h0]
  · rw [if_neg (fun h => h0 ((hcondA1 t).mp h)), acc1_next V c t h0, hs fun hz => h0 (by rw [hz])]

abbrev bodyAt1 (t : Fin cfg1.N) : Prog (TpuEff nD τ sig (Elt F) Λ₀ .tc) PUnit :=
  cc1__scatter_kernel (grid1.coords t) (ms1_0 t) (hstage1_0 ((cfg1.slots t 0).cast nbuf1_0)) (ms1_1 t) (hstage1_1 ((cfg1.slots t 1).cast nbuf1_1))
    (ms1_2 t) (hstage1_2 ((cfg1.slots t 2).cast nbuf1_2)) scM1 (Memref.isWhole_whole _)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem Phi1_castSucc (c : Dev nD) (t : Fin cfg1.N) :
    (dat1 V c).Φ t.castSucc = carried c scM1 (Pipeline.ΦA spec1 c) (others1 (F := F) c) (acc1 V c) t.val (Nat.le_of_lt t.isLt) := by
  dsimp only [dat1]; simp only [Fin.coe_castSucc]

theorem Phi1_succ (c : Dev nD) (t : Fin cfg1.N) :
    (dat1 V c).Φ t.succ = named c scM1 (others1 (F := F) c) (acc1 V c t.val t.isLt) := rfl

theorem leaves1_0 (c : Dev nD) (t : Fin cfg1.N) :
    (dat1 V c).leavesExact 0 t = owns (c : Thread nD τ) (ms1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact; rw [show cfg1.idle 1 (cfg1.grid.coords t) = false from rfl, after1_1]

/-- The body at any point: the invariant hands it the accumulator at what the point before left (at anything where there is none) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl, Phi1_succ, Phi1_castSucc, leaves1_0, leaves1_1]
  iintro ⟨HPhi, Ho, ⟨%d0, H0⟩, ⟨%d1, H1⟩, ⟨%d2, H2⟩⟩
  ihave HPhi' := (carried_named c scM1 _ _ (acc1 V c) (Entails.of_eq (PhiA1_eq c)) t.val (Nat.le_of_lt t.isLt)) $$ HPhi
  icases HPhi' with ⟨%s, %hs, ⟨HS, Hoth⟩, Hg⟩
  iapply (run1 c Set.univ _ _ _ _ _ _ _ _ _ (fun h => by have := (hcondA1 t).mp h.1; have := (hcondB1 t).mp h.2; omega)
    (xw1 V c t) (xt1 V c t) s _ _)
  isplitl [H0]; · iexact H0
  isplitl [H1]; · iexact H1
  isplitl [H2]; · iexact H2
  isplitl [HS]; · iexact HS
  rw [accStep1 V c t s hs]
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves1_2 V c t d2); iexact H2

theorem body_obligation1 (c : Dev nD) : BodyObligation (dat1 (F := F) V c) (defs₀ (F := F)) Variants.none () Set.univ := fun t => by
  rw [bigSep_W1, bigSep_W1]
  exact sound_body1 V c t

theorem hout1 (c : Dev nD) : (dat1 V c).Φ (Fin.last cfg1.N) ⊢ Pipeline.ΦA spec1 c :=
  (carried_forget c scM1 _ _ (acc1 V c) (Entails.of_eq (PhiA1_eq c)) (Fin.last cfg1.N).val (Nat.le_of_lt_succ (Fin.last cfg1.N).isLt)).trans
    (Entails.of_eq (PhiA1_eq c).symm)

end Cert.Kernel.Hand

end
-- ==== Proof.BRuns2.lean ====
import proofs.«406331_j48928267436271_1_alg».proof.Proof.Gen.Kernel.Launch
import proofs.«406331_j48928267436271_1_alg».proof.Proof.Gen.Kernel.Skeleton
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ (Pipeline.UD sig nD τ) ℕ

abbrev condA2 (i : grid2.Coords) : Prop := (Scalar.cmpi .ne (Scalar.extui (Scalar.cmpi .eq (BitVec.ofNat 32 (i 1).val) 0#32)) 0#32) = 1#1
abbrev condB2 (i : grid2.Coords) : Prop := k2_cond2 i = 1#1

theorem zeros2 : (![0, 0] : Fin 2 → ℕ) = fun _ => 0 := by funext a; fin_cases a <;> rfl

/-- In every case the last store into a block covers it, so the block reads back as that store's payload; a block not stored into keeps what it held. -/
theorem run2 (c : Dev nD) (E : Set ℕ) (i : grid2.Coords)
    (arg2 : Memref sig .tc .vmem S2048x1 .i32) (harg2 : arg2.IsWhole) (arg3 : Memref sig .tc .vmem S1024x64 .f32) (harg3 : arg3.IsWhole)
    (arg4 : Memref sig .tc .vmem S2048x64 .f32) (harg4 : arg4.IsWhole) (arg5 : Memref sig .tc .vmem S2048x64 .f32) (harg5 : arg5.IsWhole)
    (hAB : ¬ (condA2 i ∧ condB2 i))
    (x0 : Vec F S2048x1 .i32) (x1 : Vec F S1024x64 .f32) (s y4 : Vec F S2048x64 .f32) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare s
        ∗ (iprop(owns (c : Thread nD τ) arg2 fullShare x0 ∗ owns (c : Thread nD τ) arg3 fullShare x1
            ∗ owns (c : Thread nD τ) arg4 fullShare (if condB2 i then k2_pay2 i x0 x1 (if condA2 i then k2_pay1 else s) else y4)
            ∗ owns (c : Thread nD τ) arg5 fullShare (k2_pay2 i x0 x1 (if condA2 i then k2_pay1 else s))) -∗ K ⟨⟩))
      ⊢ wp frame (wpE (defs₀ (F := F)) Variants.none c none) E (cc2__gather_kernel i arg2 harg2 arg3 harg3 arg4 harg4 arg5 harg5) K := by
  unfold owns
  iintro ⟨⟨%f0, %h0, H0⟩, ⟨%f1, %h1, H1⟩, ⟨%f4, %h4, H4⟩, ⟨%f5, %h5, H5⟩, Hk⟩
  split_ifs
  · exact absurd ⟨‹_›, ‹_›⟩ hAB
  all_goals
    simp only [cc2__gather_kernel_eq_skeleton]; unfold cc2__gather_kernel_skel
    sl_exec
    sl_step
    iapply Hk
    isplitl [H0]; swap; isplitl [H1]; swap; isplitl [H4]
    all_goals
      iexists _; isplitr; swap; iassumption
      ipureintro
      first
      | with_reducible assumption
      | sl_unfold_words
        rw [View.read_writes_eq_canon, View.canon_cons_unit_zero zeros2]
        · simp only [View.readAt_eq_ld, h0, h1, h5, View.ld_unit_zero (S := S2048x1) zeros2, View.ld_unit_zero (S := S1024x64) zeros2, View.ld_unit_zero (S := S2048x64) zeros2, View.readCov_unit_zero (S := S2048x64) _ zeros2]
        · exact fun y => ⟨_, List.mem_cons_self, View.mem_set_unit_zero zeros2 Facts₀.inb_S2048x64_S2048x64_0_0 y⟩

end Cert.Kernel.Hand

end
-- ==== Proof.BData2.lean ====
import proofs.«406331_j48928267436271_1_alg».proof.Proof.Gen.Kernel.Launch
import proofs.«406331_j48928267436271_1_alg».proof.Proof.Gen.Kernel.Skeleton
import proofs.«406331_j48928267436271_1_alg».proof.Proof.BRuns2
import proofs.«406331_j48928267436271_1_alg».proof.Proof.LibRunFold

noncomputable section

namespace Cert.Kernel.Hand

open Cert.Kernel Cert.Kernel.Gen Cert.LibRunFold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xw2 (c : Dev nD) (t : Fin cfg2.N) : Vec F S2048x1 .i32 := iblk2 V c 0 t
abbrev xt2 (c : Dev nD) (t : Fin cfg2.N) : Vec F S1024x64 .f32 := iblk2 V c 1 t

theorem N2_val : cfg2.N = 19159 := N_2
theorem lt2 (t : Fin cfg2.N) : t.val < 19159 := lt_of_lt_of_eq t.isLt N2_val

theorem coordIn2 (t : Fin cfg2.N) : ((grid2.coords t) 1).val = t.val % 49 := by
  show t.val / grid2.stride 1 % 49 = _
  rw [show grid2.stride 1 = 1 from by decide, Nat.div_one]

theorem coordOut2 (t : Fin cfg2.N) : ((grid2.coords t) 0).val = t.val / 49 := by
  show t.val / grid2.stride 0 % 391 = _
  rw [show grid2.stride 0 = 49 from by decide]
  exact Nat.mod_eq_of_lt (by have := lt2 t; omega)

theorem index2_0 (t : Fin cfg2.N) : (cfg2.win 0).index t = ![t.val / 49, 0] := by
  show cc2_transform_0 (grid2.coords t) = _
  unfold cc2_transform_0; dsimp only
  rw [coordOut2, toNat_small (t.val / 49) (by have := lt2 t; omega)]
  rfl
theorem index2_1 (t : Fin cfg2.N) : (cfg2.win 1).index t = ![t.val % 49, 0] := by
  show cc2_transform_1 (grid2.coords t) = _
  unfold cc2_transform_1; dsimp only
  rw [coordIn2, toNat_small (t.val % 49) (by have := lt2 t; omega)]
  rfl
theorem index2_2 (t : Fin cfg2.N) : (cfg2.win 2).index t = ![t.val / 49, 0] := by
  show cc2_transform_2 (grid2.coords t) = _
  unfold cc2_transform_2; dsimp only
  rw [coordOut2, toNat_small (t.val / 49) (by have := lt2 t; omega)]
  rfl

theorem flush2_2_iff (t : Fin cfg2.N) : (cfg2.win 2).flush t = true ↔ t.val % 49 = 48 := by
  unfold Pipeline.Window.flush
  rw [show (cfg2.win 2).isOut = true from rfl, Bool.true_and, Bool.or_eq_true, decide_eq_true_eq, decide_eq_true_eq]
  exact (run_end_iff (by decide) ⟨391, N_2⟩ _ index2_2 t).trans (by omega)

theorem hcondA2 (t : Fin cfg2.N) : condA2 (grid2.coords t) ↔ t.val % 49 = 0 := by
  unfold condA2; rw [coordIn2]; exact eq_word _ 0 (by omega) (by omega)

theorem hcondB2 (t : Fin cfg2.N) : condB2 (grid2.coords t) ↔ t.val % 49 = 48 := by
  unfold condB2 k2_cond2; dsimp only; rw [coordIn2]; exact eq_word _ 48 (by omega) (by omega)

abbrev ms2_0 (t : Fin cfg2.N) : Memref sig .tc .vmem S2048x1 .i32 := win2_0.stage (cfg2.slots t 0)
abbrev ms2_1 (t : Fin cfg2.N) : Memref sig .tc .vmem S1024x64 .f32 := win2_1.stage (cfg2.slots t 1)
abbrev ms2_2 (t : Fin cfg2.N) : Memref sig .tc .vmem S2048x64 .f32 := win2_2.stage (cfg2.slots t 2)
abbrev scM2 : Memref sig .tc .vmem S2048x64 .f32 := Memref.whole cc2_scratch0

/-- The accumulator after each point: the body's stored value over the zero vector where a run of 49 starts, over what the point before left elsewhere. -/
def acc2 (c : Dev nD) : (n : ℕ) → n < cfg2.N → Vec F S2048x64 .f32 :=
  fold 49 k2_pay1 fun n h => k2_pay2 (grid2.coords ⟨n, h⟩) (xw2 V c ⟨n, h⟩) (xt2 V c ⟨n, h⟩)

theorem acc2_first (c : Dev nD) (t : Fin cfg2.N) (h : t.val % 49 = 0) :
    acc2 V c t.val t.isLt = k2_pay2 (grid2.coords t) (xw2 V c t) (xt2 V c t) k2_pay1 := fold_first _ _ _ _ _ h

theorem acc2_next (c : Dev nD) (t : Fin cfg2.N) (h : ¬ t.val % 49 = 0) :
    acc2 V c t.val t.isLt = k2_pay2 (grid2.coords t) (xw2 V c t) (xt2 V c t)
      (acc2 V c (t.val - 1) (Nat.lt_of_le_of_lt (Nat.sub_le _ _) t.isLt)) := fold_next _ _ _ _ _ h

abbrev others2 (c : Dev nD) : sProp 𝕄 :=
  Pipeline.scopedRestBut (Ix := Unit) (Name := ℕ) (U := Pipeline.UD sig nD τ) (Lvl := ℕ) (Val := Elt F) spec2 c [cc2_scratch0]

theorem PhiA2_eq (c : Dev nD) :
    (Pipeline.ΦA spec2 c : sProp 𝕄)
      = opened c scM2 (others2 (F := F) c) := by
  unfold Pipeline.ΦA opened
  rw [Pipeline.scopedRest_split_of_list spec2 c [cc2_scratch0] (by decide) (by decide)]
  simp only [scM2, owns_whole]; rfl

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := carried c scM2 (Pipeline.ΦA spec2 c) (others2 (F := F) c) (acc2 V c) t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem leaves2_2 (c : Dev nD) (t : Fin cfg2.N) (d) :
    owns (c : Thread nD τ) (ms2_2 t) fullShare (if condB2 (grid2.coords t) then acc2 V c t.val t.isLt else (dat2 V c).before 2 t d)
      ⊢ (dat2 V c).leavesExact 2 t := by
  by_cases hB : condB2 (grid2.coords t)
  · rw [if_pos hB, show (dat2 V c).leavesExact 2 t = owns (c : Thread nD τ) (ms2_2 t) fullShare ((dat2 V c).after 2 t) from by
      unfold Dat.leavesExact
      rw [show cfg2.idle 2 (grid2.coords t) = false from by
        show (!(k2_cond2 (grid2.coords t) == 1#1)) = false
        rw [Bool.not_eq_false', beq_iff_eq]; exact hB], after2_2]
  · rw [if_neg hB, Dat.leavesExact_idle (dat2 V c) 2 t
      (by show (!(k2_cond2 (grid2.coords t) == 1#1)) = true
          rw [Bool.not_eq_true', beq_eq_false_iff_ne]; exact hB)
      (by rw [Bool.eq_false_iff]; exact fun hf => hB ((hcondB2 t).mpr ((flush2_2_iff t).mp hf)))]
    iintro H; iexists _; iexact H

/-- One step of the accumulator, whichever case the point is in. -/
theorem accStep2 (c : Dev nD) (t : Fin cfg2.N) (s : Vec F S2048x64 .f32)
    (hs : ∀ hz : t.val ≠ 0, s = acc2 V c (t.val - 1) (by have := t.isLt; omega)) :
    k2_pay2 (grid2.coords t) (xw2 V c t) (xt2 V c t) (if condA2 (grid2.coords t) then k2_pay1 else s) = acc2 V c t.val t.isLt := by
  by_cases h0 : t.val % 49 = 0
  · rw [if_pos ((hcondA2 t).mpr h0), acc2_first V c t h0]
  · rw [if_neg (fun h => h0 ((hcondA2 t).mp h)), acc2_next V c t h0, hs fun hz => h0 (by rw [hz])]

abbrev bodyAt2 (t : Fin cfg2.N) : Prog (TpuEff nD τ sig (Elt F) Λ₀ .tc) PUnit :=
  cc2__gather_kernel (grid2.coords t) (ms2_0 t) (hstage2_0 ((cfg2.slots t 0).cast nbuf2_0)) (ms2_1 t) (hstage2_1 ((cfg2.slots t 1).cast nbuf2_1))
    (ms2_2 t) (hstage2_2 ((cfg2.slots t 2).cast nbuf2_2)) scM2 (Memref.isWhole_whole _)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem Phi2_castSucc (c : Dev nD) (t : Fin cfg2.N) :
    (dat2 V c).Φ t.castSucc = carried c scM2 (Pipeline.ΦA spec2 c) (others2 (F := F) c) (acc2 V c) t.val (Nat.le_of_lt t.isLt) := by
  dsimp only [dat2]; simp only [Fin.coe_castSucc]

theorem Phi2_succ (c : Dev nD) (t : Fin cfg2.N) :
    (dat2 V c).Φ t.succ = named c scM2 (others2 (F := F) c) (acc2 V c t.val t.isLt) := rfl

theorem leaves2_0 (c : Dev nD) (t : Fin cfg2.N) :
    (dat2 V c).leavesExact 0 t = owns (c : Thread nD τ) (ms2_0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (ms2_1 t) fullShare (iblk2 V c 1 t) := by
  unfold Dat.leavesExact; rw [show cfg2.idle 1 (cfg2.grid.coords t) = false from rfl, after2_1]

/-- The body at any point: the invariant hands it the accumulator at what the point before left (at anything where there is none) and takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl, Phi2_succ, Phi2_castSucc, leaves2_0, leaves2_1]
  iintro ⟨HPhi, Ho, ⟨%d0, H0⟩, ⟨%d1, H1⟩, ⟨%d2, H2⟩⟩
  ihave HPhi' := (carried_named c scM2 _ _ (acc2 V c) (Entails.of_eq (PhiA2_eq c)) t.val (Nat.le_of_lt t.isLt)) $$ HPhi
  icases HPhi' with ⟨%s, %hs, ⟨HS, Hoth⟩, Hg⟩
  iapply (run2 c Set.univ _ _ _ _ _ _ _ _ _ (fun h => by have := (hcondA2 t).mp h.1; have := (hcondB2 t).mp h.2; omega)
    (xw2 V c t) (xt2 V c t) s _ _)
  isplitl [H0]; · iexact H0
  isplitl [H1]; · iexact H1
  isplitl [H2]; · iexact H2
  isplitl [HS]; · iexact HS
  rw [accStep2 V c t s hs]
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves2_2 V c t d2); iexact H2

theorem body_obligation2 (c : Dev nD) : BodyObligation (dat2 (F := F) V c) (defs₀ (F := F)) Variants.none () Set.univ := fun t => by
  rw [bigSep_W2, bigSep_W2]
  exact sound_body2 V c t

theorem hout2 (c : Dev nD) : (dat2 V c).Φ (Fin.last cfg2.N) ⊢ Pipeline.ΦA spec2 c :=
  (carried_forget c scM2 _ _ (acc2 V c) (Entails.of_eq (PhiA2_eq c)) (Fin.last cfg2.N).val (Nat.le_of_lt_succ (Fin.last cfg2.N).isLt)).trans
    (Entails.of_eq (PhiA2_eq c).symm)

end Cert.Kernel.Hand

end
-- ==== Proof.BRuns3.lean ====
import proofs.«406331_j48928267436271_1_alg».proof.Proof.Gen.Kernel.Launch
import proofs.«406331_j48928267436271_1_alg».proof.Proof.Gen.Kernel.Skeleton
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ (Pipeline.UD sig nD τ) ℕ

abbrev condA3 (i : grid3.Coords) : Prop := (Scalar.cmpi .ne (Scalar.extui (Scalar.cmpi .eq (BitVec.ofNat 32 (i 1).val) 0#32)) 0#32) = 1#1
abbrev condB3 (i : grid3.Coords) : Prop := k3_cond2 i = 1#1

theorem zeros2 : (![0, 0] : Fin 2 → ℕ) = fun _ => 0 := by funext a; fin_cases a <;> rfl

/-- In every case the last store into a block covers it, so the block reads back as that store's payload; a block not stored into keeps what it held. -/
theorem run3 (c : Dev nD) (E : Set ℕ) (i : grid3.Coords)
    (arg2 : Memref sig .tc .vmem S1x2048 .i32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1024x64 .f32) (harg5 : arg5.IsWhole)
    (hAB : ¬ (condA3 i ∧ condB3 i))
    (x0 : Vec F S1x2048 .i32) (x1 : Vec F S2048x64 .f32) (s y4 : Vec F S1024x64 .f32) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare s
        ∗ (iprop(owns (c : Thread nD τ) arg2 fullShare x0 ∗ owns (c : Thread nD τ) arg3 fullShare x1
            ∗ owns (c : Thread nD τ) arg4 fullShare (if condB3 i then k3_pay2 i x0 x1 (if condA3 i then k3_pay1 else s) else y4)
            ∗ owns (c : Thread nD τ) arg5 fullShare (k3_pay2 i x0 x1 (if condA3 i then k3_pay1 else s))) -∗ K ⟨⟩))
      ⊢ wp frame (wpE (defs₀ (F := F)) Variants.none c none) E (cc3__scatter_kernel i arg2 harg2 arg3 harg3 arg4 harg4 arg5 harg5) K := by
  unfold owns
  iintro ⟨⟨%f0, %h0, H0⟩, ⟨%f1, %h1, H1⟩, ⟨%f4, %h4, H4⟩, ⟨%f5, %h5, H5⟩, Hk⟩
  split_ifs
  · exact absurd ⟨‹_›, ‹_›⟩ hAB
  all_goals
    simp only [cc3__scatter_kernel_eq_skeleton]; unfold cc3__scatter_kernel_skel
    sl_exec
    sl_step
    iapply Hk
    isplitl [H0]; swap; isplitl [H1]; swap; isplitl [H4]
    all_goals
      iexists _; isplitr; swap; iassumption
      ipureintro
      first
      | with_reducible assumption
      | sl_unfold_words
        rw [View.read_writes_eq_canon, View.canon_cons_unit_zero zeros2]
        · simp only [View.readAt_eq_ld, h0, h1, h5, View.ld_unit_zero (S := S1x2048) zeros2, View.ld_unit_zero (S := S2048x64) zeros2, View.ld_unit_zero (S := S1024x64) zeros2, View.readCov_unit_zero (S := S1024x64) _ zeros2]
        · exact fun y => ⟨_, List.mem_cons_self, View.mem_set_unit_zero zeros2 Facts₀.inb_S1024x64_S1024x64_0_0 y⟩

end Cert.Kernel.Hand

end
-- ==== Proof.BData3.lean ====
import proofs.«406331_j48928267436271_1_alg».proof.Proof.Gen.Kernel.Launch
import proofs.«406331_j48928267436271_1_alg».proof.Proof.Gen.Kernel.Skeleton
import proofs.«406331_j48928267436271_1_alg».proof.Proof.BRuns3
import proofs.«406331_j48928267436271_1_alg».proof.Proof.LibRunFold

noncomputable section

namespace Cert.Kernel.Hand

open Cert.Kernel Cert.Kernel.Gen Cert.LibRunFold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xw3 (c : Dev nD) (t : Fin cfg3.N) : Vec F S1x2048 .i32 := iblk3 V c 0 t
abbrev xt3 (c : Dev nD) (t : Fin cfg3.N) : Vec F S2048x64 .f32 := iblk3 V c 1 t

theorem N3_val : cfg3.N = 19159 := N_3
theorem lt3 (t : Fin cfg3.N) : t.val < 19159 := lt_of_lt_of_eq t.isLt N3_val

theorem coordIn3 (t : Fin cfg3.N) : ((grid3.coords t) 1).val = t.val % 391 := by
  show t.val / grid3.stride 1 % 391 = _
  rw [show grid3.stride 1 = 1 from by decide, Nat.div_one]

theorem coordOut3 (t : Fin cfg3.N) : ((grid3.coords t) 0).val = t.val / 391 := by
  show t.val / grid3.stride 0 % 49 = _
  rw [show grid3.stride 0 = 391 from by decide]
  exact Nat.mod_eq_of_lt (by have := lt3 t; omega)

theorem index3_0 (t : Fin cfg3.N) : (cfg3.win 0).index t = ![0, t.val % 391] := by
  show cc3_transform_0 (grid3.coords t) = _
  unfold cc3_transform_0; dsimp only
  rw [coordIn3, toNat_small (t.val % 391) (by have := lt3 t; omega)]
  rfl
theorem index3_1 (t : Fin cfg3.N) : (cfg3.win 1).index t = ![t.val % 391, 0] := by
  show cc3_transform_1 (grid3.coords t) = _
  unfold cc3_transform_1; dsimp only
  rw [coordIn3, toNat_small (t.val % 391) (by have := lt3 t; omega)]
  rfl
theorem index3_2 (t : Fin cfg3.N) : (cfg3.win 2).index t = ![t.val / 391, 0] := by
  show cc3_transform_2 (grid3.coords t) = _
  unfold cc3_transform_2; dsimp only
  rw [coordOut3, toNat_small (t.val / 391) (by have := lt3 t; omega)]
  rfl

theorem flush3_2_iff (t : Fin cfg3.N) : (cfg3.win 2).flush t = true ↔ t.val % 391 = 390 := by
  unfold Pipeline.Window.flush
  rw [show (cfg3.win 2).isOut = true from rfl, Bool.true_and, Bool.or_eq_true, decide_eq_true_eq, decide_eq_true_eq]
  exact (run_end_iff (by decide) ⟨49, N_3⟩ _ index3_2 t).trans (by omega)

theorem hcondA3 (t : Fin cfg3.N) : condA3 (grid3.coords t) ↔ t.val % 391 = 0 := by
  unfold condA3; rw [coordIn3]; exact eq_word _ 0 (by omega) (by omega)

theorem hcondB3 (t : Fin cfg3.N) : condB3 (grid3.coords t) ↔ t.val % 391 = 390 := by
  unfold condB3 k3_cond2; dsimp only; rw [coordIn3]; exact eq_word _ 390 (by omega) (by omega)

abbrev ms3_0 (t : Fin cfg3.N) : Memref sig .tc .vmem S1x2048 .i32 := win3_0.stage (cfg3.slots t 0)
abbrev ms3_1 (t : Fin cfg3.N) : Memref sig .tc .vmem S2048x64 .f32 := win3_1.stage (cfg3.slots t 1)
abbrev ms3_2 (t : Fin cfg3.N) : Memref sig .tc .vmem S1024x64 .f32 := win3_2.stage (cfg3.slots t 2)
abbrev scM3 : Memref sig .tc .vmem S1024x64 .f32 := Memref.whole cc3_scratch0

/-- The accumulator after each point: the body's stored value over the zero vector where a run of 391 starts, over what the point before left elsewhere. -/
def acc3 (c : Dev nD) : (n : ℕ) → n < cfg3.N → Vec F S1024x64 .f32 :=
  fold 391 k3_pay1 fun n h => k3_pay2 (grid3.coords ⟨n, h⟩) (xw3 V c ⟨n, h⟩) (xt3 V c ⟨n, h⟩)

theorem acc3_first (c : Dev nD) (t : Fin cfg3.N) (h : t.val % 391 = 0) :
    acc3 V c t.val t.isLt = k3_pay2 (grid3.coords t) (xw3 V c t) (xt3 V c t) k3_pay1 := fold_first _ _ _ _ _ h

theorem acc3_next (c : Dev nD) (t : Fin cfg3.N) (h : ¬ t.val % 391 = 0) :
    acc3 V c t.val t.isLt = k3_pay2 (grid3.coords t) (xw3 V c t) (xt3 V c t)
      (acc3 V c (t.val - 1) (Nat.lt_of_le_of_lt (Nat.sub_le _ _) t.isLt)) := fold_next _ _ _ _ _ h

abbrev others3 (c : Dev nD) : sProp 𝕄 :=
  Pipeline.scopedRestBut (Ix := Unit) (Name := ℕ) (U := Pipeline.UD sig nD τ) (Lvl := ℕ) (Val := Elt F) spec3 c [cc3_scratch0]

theorem PhiA3_eq (c : Dev nD) :
    (Pipeline.ΦA spec3 c : sProp 𝕄)
      = opened c scM3 (others3 (F := F) c) := by
  unfold Pipeline.ΦA opened
  rw [Pipeline.scopedRest_split_of_list spec3 c [cc3_scratch0] (by decide) (by decide)]
  simp only [scM3, owns_whole]; rfl

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := carried c scM3 (Pipeline.ΦA spec3 c) (others3 (F := F) c) (acc3 V c) t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem leaves3_2 (c : Dev nD) (t : Fin cfg3.N) (d) :
    owns (c : Thread nD τ) (ms3_2 t) fullShare (if condB3 (grid3.coords t) then acc3 V c t.val t.isLt else (dat3 V c).before 2 t d)
      ⊢ (dat3 V c).leavesExact 2 t := by
  by_cases hB : condB3 (grid3.coords t)
  · rw [if_pos hB, show (dat3 V c).leavesExact 2 t = owns (c : Thread nD τ) (ms3_2 t) fullShare ((dat3 V c).after 2 t) from by
      unfold Dat.leavesExact
      rw [show cfg3.idle 2 (grid3.coords t) = false from by
        show (!(k3_cond2 (grid3.coords t) == 1#1)) = false
        rw [Bool.not_eq_false', beq_iff_eq]; exact hB], after3_2]
  · rw [if_neg hB, Dat.leavesExact_idle (dat3 V c) 2 t
      (by show (!(k3_cond2 (grid3.coords t) == 1#1)) = true
          rw [Bool.not_eq_true', beq_eq_false_iff_ne]; exact hB)
      (by rw [Bool.eq_false_iff]; exact fun hf => hB ((hcondB3 t).mpr ((flush3_2_iff t).mp hf)))]
    iintro H; iexists _; iexact H

/-- One step of the accumulator, whichever case the point is in. -/
theorem accStep3 (c : Dev nD) (t : Fin cfg3.N) (s : Vec F S1024x64 .f32)
    (hs : ∀ hz : t.val ≠ 0, s = acc3 V c (t.val - 1) (by have := t.isLt; omega)) :
    k3_pay2 (grid3.coords t) (xw3 V c t) (xt3 V c t) (if condA3 (grid3.coords t) then k3_pay1 else s) = acc3 V c t.val t.isLt := by
  by_cases h0 : t.val % 391 = 0
  · rw [if_pos ((hcondA3 t).mpr h0), acc3_first V c t h0]
  · rw [if_neg (fun h => h0 ((hcondA3 t).mp h)), acc3_next V c t h0, hs fun hz => h0 (by rw [hz])]

abbrev bodyAt3 (t : Fin cfg3.N) : Prog (TpuEff nD τ sig (Elt F) Λ₀ .tc) PUnit :=
  cc3__scatter_kernel (grid3.coords t) (ms3_0 t) (hstage3_0 ((cfg3.slots t 0).cast nbuf3_0)) (ms3_1 t) (hstage3_1 ((cfg3.slots t 1).cast nbuf3_1))
    (ms3_2 t) (hstage3_2 ((cfg3.slots t 2).cast nbuf3_2)) scM3 (Memref.isWhole_whole _)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem Phi3_castSucc (c : Dev nD) (t : Fin cfg3.N) :
    (dat3 V c).Φ t.castSucc = carried c scM3 (Pipeline.ΦA spec3 c) (others3 (F := F) c) (acc3 V c) t.val (Nat.le_of_lt t.isLt) := by
  dsimp only [dat3]; simp only [Fin.coe_castSucc]

theorem Phi3_succ (c : Dev nD) (t : Fin cfg3.N) :
    (dat3 V c).Φ t.succ = named c scM3 (others3 (F := F) c) (acc3 V c t.val t.isLt) := rfl

theorem leaves3_0 (c : Dev nD) (t : Fin cfg3.N) :
    (dat3 V c).leavesExact 0 t = owns (c : Thread nD τ) (ms3_0 t) fullShare (iblk3 V c 0 t) := by
  unfold Dat.leavesExact; rw [show cfg3.idle 0 (cfg3.grid.coords t) = false from rfl, after3_0]
theorem leaves3_1 (c : Dev nD) (t : Fin cfg3.N) :
    (dat3 V c).leavesExact 1 t = owns (c : Thread nD τ) (ms3_1 t) fullShare (iblk3 V c 1 t) := by
  unfold Dat.leavesExact; rw [show cfg3.idle 1 (cfg3.grid.coords t) = false from rfl, after3_1]

/-- The body at any point: the invariant hands it the accumulator at what the point before left (at anything where there is none) and takes it back at this point's value. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl, Phi3_succ, Phi3_castSucc, leaves3_0, leaves3_1]
  iintro ⟨HPhi, Ho, ⟨%d0, H0⟩, ⟨%d1, H1⟩, ⟨%d2, H2⟩⟩
  ihave HPhi' := (carried_named c scM3 _ _ (acc3 V c) (Entails.of_eq (PhiA3_eq c)) t.val (Nat.le_of_lt t.isLt)) $$ HPhi
  icases HPhi' with ⟨%s, %hs, ⟨HS, Hoth⟩, Hg⟩
  iapply (run3 c Set.univ _ _ _ _ _ _ _ _ _ (fun h => by have := (hcondA3 t).mp h.1; have := (hcondB3 t).mp h.2; omega)
    (xw3 V c t) (xt3 V c t) s _ _)
  isplitl [H0]; · iexact H0
  isplitl [H1]; · iexact H1
  isplitl [H2]; · iexact H2
  isplitl [HS]; · iexact HS
  rw [accStep3 V c t s hs]
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves3_2 V c t d2); iexact H2

theorem body_obligation3 (c : Dev nD) : BodyObligation (dat3 (F := F) V c) (defs₀ (F := F)) Variants.none () Set.univ := fun t => by
  rw [bigSep_W3, bigSep_W3]
  exact sound_body3 V c t

theorem hout3 (c : Dev nD) : (dat3 V c).Φ (Fin.last cfg3.N) ⊢ Pipeline.ΦA spec3 c :=
  (carried_forget c scM3 _ _ (acc3 V c) (Entails.of_eq (PhiA3_eq c)) (Fin.last cfg3.N).val (Nat.le_of_lt_succ (Fin.last cfg3.N).isLt)).trans
    (Entails.of_eq (PhiA3_eq c).symm)

end Cert.Kernel.Hand

end
-- ==== Proof.BRun.lean ====
import proofs.«406331_j48928267436271_1_alg».proof.Proof.Gen.Kernel.Launch
import proofs.«406331_j48928267436271_1_alg».proof.Proof.Gen.Kernel.Skeleton
import proofs.«406331_j48928267436271_1_alg».proof.Proof.Gen.Kernel.Regions
import proofs.«406331_j48928267436271_1_alg».proof.Proof.BData0
import proofs.«406331_j48928267436271_1_alg».proof.Proof.BData1
import proofs.«406331_j48928267436271_1_alg».proof.Proof.BData2
import proofs.«406331_j48928267436271_1_alg».proof.Proof.BData3
import Idealize.ShloMosaic.Lib.Pipeline.Regions
import Idealize.ShloMosaic.Lib.Pipeline.RegionsLoop
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev Wv0 : Dev nD → Valuation τ sig (Elt F) := fun c b => m (c, b)
abbrev Wv1 (c : Dev nD) : Valuation τ sig (Elt F) := StableHlo.after hostOps0 (Wv0 m c)
abbrev Wv2 (c : Dev nD) : Valuation τ sig (Elt F) := StableHlo.after hostOps0_1 (Wv1 m c)
abbrev Wv3 (c : Dev nD) : Valuation τ sig (Elt F) := StableHlo.after hostOps0_2 (Wv2 m c)
abbrev Wv4 (c : Dev nD) : Valuation τ sig (Elt F) := StableHlo.after hostOps0_3 (Wv3 m c)
abbrev Wv5 (c : Dev nD) : Valuation τ sig (Elt F) := StableHlo.after hostOps0_4 (Wv4 m c)
abbrev Wv6 (c : Dev nD) : Valuation τ sig (Elt F) := StableHlo.after hostOps0_5 (Wv5 m c)
abbrev Wv7 (c : Dev nD) : Valuation τ sig (Elt F) := StableHlo.after hostOps0_6 (Wv6 m c)
abbrev Wv8 (c : Dev nD) : Valuation τ sig (Elt F) := StableHlo.after hostOps0_7 (Wv7 m c)
abbrev Wv9 (c : Dev nD) : Valuation τ sig (Elt F) := StableHlo.after hostOps0_8 (Wv8 m c)
abbrev Wv10 (c : Dev nD) : Valuation τ sig (Elt F) := StableHlo.after hostOps0_9 (Wv9 m c)
def Wv11 (c : Dev nD) : Valuation τ sig (Elt F) :=
  Pipeline.withArrays spec0 c (Wv10 m c) fun w => (dat0 (fun c b => Wv10 m c b) c).arrAt w cfg0.N
theorem Wv11_arr (c : Dev nD) (w : Fin cfg0.W) :
    Wv11 m c (Proc.devRef .tc (Pipeline.arrRef spec0 w)) = (dat0 (fun c b => Wv10 m c b) c).arrAt w cfg0.N :=
  Pipeline.withArrays_arr spec0 launch0.win.arr_inj c _ _ w
theorem Wv11_of_ne (c : Dev nD) (b : Ref sig .tc) (hb : ∀ w, Pipeline.arrRef spec0 w ≠ b) :
    Wv11 m c (Proc.devRef .tc b) = Wv10 m c (Proc.devRef .tc b) :=
  Pipeline.withArrays_of_ne spec0 c _ _ b hb
def Wv12 (c : Dev nD) : Valuation τ sig (Elt F) :=
  Pipeline.withArrays spec1 c (Wv11 m c) fun w => (dat1 (fun c b => Wv11 m c b) c).arrAt w cfg1.N
theorem Wv12_arr (c : Dev nD) (w : Fin cfg1.W) :
    Wv12 m c (Proc.devRef .tc (Pipeline.arrRef spec1 w)) = (dat1 (fun c b => Wv11 m c b) c).arrAt w cfg1.N :=
  Pipeline.withArrays_arr spec1 launch1.win.arr_inj c _ _ w
theorem Wv12_of_ne (c : Dev nD) (b : Ref sig .tc) (hb : ∀ w, Pipeline.arrRef spec1 w ≠ b) :
    Wv12 m c (Proc.devRef .tc b) = Wv11 m c (Proc.devRef .tc b) :=
  Pipeline.withArrays_of_ne spec1 c _ _ b hb
abbrev Wv13 (c : Dev nD) : Valuation τ sig (Elt F) := StableHlo.after hostOps2 (Wv12 m c)
abbrev Wv14 (c : Dev nD) : Valuation τ sig (Elt F) := StableHlo.after hostOps2_1 (Wv13 m c)
abbrev Wv15 (c : Dev nD) : Valuation τ sig (Elt F) := StableHlo.after hostOps2_2 (Wv14 m c)
abbrev Wv16 (c : Dev nD) : Valuation τ sig (Elt F) := StableHlo.after hostOps2_3 (Wv15 m c)
def Wv17 (c : Dev nD) : Valuation τ sig (Elt F) :=
  Pipeline.withArrays spec2 c (Wv16 m c) fun w => (dat2 (fun c b => Wv16 m c b) c).arrAt w cfg2.N
theorem Wv17_arr (c : Dev nD) (w : Fin cfg2.W) :
    Wv17 m c (Proc.devRef .tc (Pipeline.arrRef spec2 w)) = (dat2 (fun c b => Wv16 m c b) c).arrAt w cfg2.N :=
  Pipeline.withArrays_arr spec2 launch2.win.arr_inj c _ _ w
theorem Wv17_of_ne (c : Dev nD) (b : Ref sig .tc) (hb : ∀ w, Pipeline.arrRef spec2 w ≠ b) :
    Wv17 m c (Proc.devRef .tc b) = Wv16 m c (Proc.devRef .tc b) :=
  Pipeline.withArrays_of_ne spec2 c _ _ b hb
def Wv18 (c : Dev nD) : Valuation τ sig (Elt F) :=
  Pipeline.withArrays spec3 c (Wv17 m c) fun w => (dat3 (fun c b => Wv17 m c b) c).arrAt w cfg3.N
theorem Wv18_arr (c : Dev nD) (w : Fin cfg3.W) :
    Wv18 m c (Proc.devRef .tc (Pipeline.arrRef spec3 w)) = (dat3 (fun c b => Wv17 m c b) c).arrAt w cfg3.N :=
  Pipeline.withArrays_arr spec3 launch3.win.arr_inj c _ _ w
theorem Wv18_of_ne (c : Dev nD) (b : Ref sig .tc) (hb : ∀ w, Pipeline.arrRef spec3 w ≠ b) :
    Wv18 m c (Proc.devRef .tc b) = Wv17 m c (Proc.devRef .tc b) :=
  Pipeline.withArrays_of_ne spec3 c _ _ b hb
abbrev Wv19 (c : Dev nD) : Valuation τ sig (Elt F) := StableHlo.after hostOps4 (Wv18 m c)

abbrev atRefs (W : Dev nD → Valuation τ sig (Elt F)) : (c : Dev nD) → (b : Ref sig .tc) → Buf (Elt F) ((c : Thread nD τ).loc b) := fun c b => W c b

abbrev adm : (p : Fin 4) → (pcfgs (F := F) p).Adm := fun p => (cfgs p).toPCfg_adm

def pdats : (p : Fin 4) → (c : Dev nD) → Dat τ (Elt F) Unit ℕ (Pipeline.UD sig nD τ) ℕ (Pipeline.pin (pcfgs (F := F)) adm p) c
  | ⟨0, _⟩ => fun c => dat0 (fun c b => Wv10 m c b) c
  | ⟨1, _⟩ => fun c => dat1 (fun c b => Wv11 m c b) c
  | ⟨2, _⟩ => fun c => dat2 (fun c b => Wv16 m c b) c
  | ⟨3, _⟩ => fun c => dat3 (fun c b => Wv17 m c b) c

abbrev 𝒱₀ : Variants := Variants.none
abbrev Lz : GSem nD τ sig → Finset Unit := fun _ => ∅
abbrev lvz : GSem nD τ sig → Unit → ℕ := fun _ _ => 0
abbrev Rb (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rb

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a region's data say whatever contents they start from, by cases on the region. -/
theorem pdats_plain (p : Fin 4) (c : Dev nD) : (∀ w, (pdats m p c).q w = fullShare) ∧ (∀ t, (pdats m p c).owed t = 0)
    ∧ (pdats m p c).recorded 0 = Set.univ ∧ (pdats m p c).Φ 0 = Pipeline.ΦA (cfgs p).spec c := by
  fin_cases p <;> exact ⟨fun _ => rfl, fun _ => rfl, rfl, rfl⟩

/-- A region as a segment between two valuations: its arrays leave the held buffers on entry and return on exit at their final contents. -/
def regOf (p : Fin 4) (L : Pipeline.LaunchFacts (nD := nD) (τ := τ) cfgs p) (Vi Vo : Dev nD → Valuation τ sig (Elt F))
    (hb : ∀ c, BodyObligation (pdats m p c) (defs₀ (F := F)) Variants.none () Set.univ)
    (hA : ∀ c w, (pdats m p c).A w = atRefs Vi c (Pipeline.arrRef (cfgs p).spec w))
    (hN : ∀ c, (pdats m p c).Φ (Fin.last _) ⊢ Pipeline.ΦA (cfgs p).spec c)
    (harr : ∀ c w, Vo c (Proc.devRef .tc (Pipeline.arrRef (cfgs p).spec w)) = (pdats m p c).arrAt w (cfgs p).N)
    (hne : ∀ c (b : Ref sig .tc), (∀ w, Pipeline.arrRef (cfgs p).spec w ≠ b) → Vo c (Proc.devRef .tc b) = Vi c (Proc.devRef .tc b)) :
    Pipeline.RegionSeg (pcfgs (F := F)) adm (pdats m) () defs₀ 𝒱₀ Lz lvz p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ Lz lvz p fun c => (pdats_plain m p c).2.1
  pre c := iprop(StableHlo.held (c : Thread nD τ) (Pipeline.ucRefs τ sig) (Vi c) ∗ Rb c)
  post c := iprop(StableHlo.held (c : Thread nD τ) (Pipeline.ucRefs τ sig) (Vo c) ∗ Rb c)
  X c := iprop(∃ r, prngReg c r)
  Y c := iprop(∃ r, prngReg c r)
  Z c := Pipeline.unscopedRest (cfgs p).spec c (atRefs Vi c)
  hentry c := by
    obtain ⟨hq, hz, hr, -⟩ := pdats_plain m p c
    have hsplit := Pipeline.arrays_of_unscopedBufs (p := p) (pcfgs (F := F)) adm (pdats m) L.win L.arr_whole c
      ((pdats m p c).share_full hq) (atRefs Vi c) (hA c)
    rw [Pipeline.unscopedBufs_held] at hsplit
    unfold Pipeline.Dat.owesAt Pipeline.owesWithin Pipeline.Dat.bound
    rw [Pipeline.ownSems0_none, hz, hr]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [(pdats_plain m p c).2.2.2]; unfold Pipeline.ΦA
    iintro ⟨Hp, -, Hr⟩
    isplitl [Hr]; · iexact Hr
    iexact Hp
  hout c := by
    rw [Pipeline.ownSems0_none]
    refine (hN c).trans ?_
    unfold Pipeline.ΦA
    iintro ⟨Hr, Hp⟩
    isplitl [Hp]; · iexact Hp
    isplitr; · iempintro
    iexact Hr
  hexit c := by
    obtain ⟨hq, hz, -⟩ := pdats_plain m p c
    have hjoin := Pipeline.unscopedBufs_of_arrays (p := p) (pcfgs (F := F)) adm (Ix := Unit) (Name := ℕ) (U := Pipeline.UD sig nD τ) (Lvl := ℕ)
      L.win L.arr_whole c (pdats m) ((pdats m p c).share_full hq)
      (atRefs Vi c) (atRefs Vo c) ((pdats m p c).arrAt · (cfgs p).N) (fun w => (harr c w).symm)
      (fun b hb => hne c b fun w e => hb (Finset.mem_image.mpr ⟨w, Finset.mem_univ _, e⟩))
    rw [Pipeline.unscopedBufs_held] at hjoin
    unfold Pipeline.Dat.owesAt Pipeline.owesWithin
    rw [hz]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := regOf m 0 launch0 (Wv10 m) (Wv11 m) (body_obligation0 _) (fun _ _ => rfl) (hout0 _) (Wv11_arr m) (Wv11_of_ne m)
def reg1 := regOf m 1 launch1 (Wv11 m) (Wv12 m) (body_obligation1 _) (fun _ _ => rfl) (hout1 _) (Wv12_arr m) (Wv12_of_ne m)
def reg2 := regOf m 2 launch2 (Wv16 m) (Wv17 m) (body_obligation2 _) (fun _ _ => rfl) (hout2 _) (Wv17_arr m) (Wv17_of_ne m)
def reg3 := regOf m 3 launch3 (Wv17 m) (Wv18 m) (body_obligation3 _) (fun _ _ => rfl) (hout3 _) (Wv18_arr m) (Wv18_of_ne m)

abbrev segs : List (Pipeline.Seg (pcfgs (F := F)) adm (pdats m) () defs₀ 𝒱₀ Lz lvz) :=
  [ .host (hseg hostOps0 hostOps0_sub hostOps0_fresh (Wv0 m)),
    .host (hseg hostOps0_1 hostOps0_1_sub hostOps0_1_fresh (Wv1 m)),
    .host (hseg hostOps0_2 hostOps0_2_sub hostOps0_2_fresh (Wv2 m)),
    .host (hseg hostOps0_3 hostOps0_3_sub hostOps0_3_fresh (Wv3 m)),
    .host (hseg hostOps0_4 hostOps0_4_sub hostOps0_4_fresh (Wv4 m)),
    .host (hseg hostOps0_5 hostOps0_5_sub hostOps0_5_fresh (Wv5 m)),
    .host (hseg hostOps0_6 hostOps0_6_sub hostOps0_6_fresh (Wv6 m)),
    .host (hseg hostOps0_7 hostOps0_7_sub hostOps0_7_fresh (Wv7 m)),
    .host (hseg hostOps0_8 hostOps0_8_sub hostOps0_8_fresh (Wv8 m)),
    .host (hseg hostOps0_9 hostOps0_9_sub hostOps0_9_fresh (Wv9 m)),
    .region (reg0 m),
    .region (reg1 m),
    .host (hseg hostOps2 hostOps2_sub hostOps2_fresh (Wv12 m)),
    .host (hseg hostOps2_1 hostOps2_1_sub hostOps2_1_fresh (Wv13 m)),
    .host (hseg hostOps2_2 hostOps2_2_sub hostOps2_2_fresh (Wv14 m)),
    .host (hseg hostOps2_3 hostOps2_3_sub hostOps2_3_fresh (Wv15 m)),
    .region (reg2 m),
    .region (reg3 m),
    .host (hseg hostOps4 hostOps4_sub hostOps4_fresh (Wv18 m)) ]

theorem main_run (c : Dev nD) : main (F := F) c = Pipeline.Seg.run (segs m) := (main_chain c).trans (by chain_rfl)

theorem run_all : θ_run defs (onTc (τ := τ) (main (F := F))) ⟨m, fun _ => 0, ρ⟩ (fun r => ∀ c : Dev nD,
      ∀ b ∈ Pipeline.ucRefs τ sig, r.2.mem (((c : Thread nD τ)).1, b) = Wv19 m c b) :=
  Pipeline.θ_run_regions_kit (pcfgs (F := F)) adm (pdats m) () cellOf_inj embL defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m c) ∗ Rb c))
    (Tₙ := fun c => iprop(StableHlo.held (c : Thread nD τ) (Pipeline.ucRefs τ sig) (Wv19 m c) ∗ ∃ r, prngReg c r))
    (hch := by
      repeat' first | exact fun _ => .rfl | apply And.intro
      intro c
      show iprop(StableHlo.held (c : Thread nD τ) (Pipeline.ucRefs τ sig) (Wv19 m c) ∗ Rb c) ⊢ _
      iintro ⟨Hh, Hp, HO⟩
      isplitl [Hh Hp]
      · isplitl [Hh]; · iexact Hh
        iexact Hp
      iexact HO)
    (hinit := by
      refine Pipeline.initEach Lz lvz fun c => ?_
      rw [show unscopedBufs c (fun b => m ((c : Thread nD τ).loc b)) = StableHlo.held (c : Thread nD τ) (Pipeline.ucRefs τ sig) (Wv0 m c)
        from Pipeline.unscopedBufs_held c (Wv0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv19 m c b)
    (hfin := fun c s' => by
      iintro ⟨⟨Hh, -⟩, HSI⟩
      unfold StableHlo.held
      imodintro
      iapply (pointsTo_read_all (Pipeline.ucRefs τ sig) (fun b => (((c : Thread nD τ)).1, b)) (Wv19 m c) s')
      isplitl [Hh] <;> iassumption)
    (hQ := fun s h c => h c)

abbrev args : List (Ref sig .tc) := [main_arg0, main_arg1, main_arg2, main_arg3, main_arg4, main_arg5, main_arg6]

/-- No host stretch writes an argument and no region has one among its arrays, so each is as launched at every boundary. -/
theorem Wv_arg (c : Dev nD) : ∀ b ∈ args, [Wv5 m c, Wv7 m c, Wv8 m c, Wv12 m c, Wv14 m c, Wv18 m c, Wv19 m c].Forall
    fun W => W (Proc.devRef .tc b) = m ((c : Thread nD τ).loc b) := by
  have h : ∀ b ∈ args, b ∉ hostOps4_W ∧ (∀ w, Pipeline.arrRef spec3 w ≠ b) ∧ (∀ w, Pipeline.arrRef spec2 w ≠ b)
      ∧ b ∉ hostOps2_3_W ∧ b ∉ hostOps2_2_W ∧ b ∉ hostOps2_1_W ∧ b ∉ hostOps2_W
      ∧ (∀ w, Pipeline.arrRef spec1 w ≠ b) ∧ (∀ w, Pipeline.arrRef spec0 w ≠ b)
      ∧ b ∉ hostOps0_9_W ∧ b ∉ hostOps0_8_W ∧ b ∉ hostOps0_7_W ∧ b ∉ hostOps0_6_W ∧ b ∉ hostOps0_5_W ∧ b ∉ hostOps0_4_W
      ∧ b ∉ hostOps0_3_W ∧ b ∉ hostOps0_2_W ∧ b ∉ hostOps0_1_W ∧ b ∉ hostOps0_W := by decide
  intro b hb
  obtain ⟨h19, h18, h17, h16, h15, h14, h13, h12, h11, h10, h9, h8, h7, h6, h5, h4, h3, h2, h1⟩ := h b hb
  have e5 := (V5_of m c b h5).trans <| (V4_of m c b h4).trans <| (V3_of m c b h3).trans <| (V2_of m c b h2).trans <| V1_of m c b h1
  have e7 := (V7_of m c b h7).trans <| (V6_of m c b h6).trans e5
  have e8 := (V8_of m c b h8).trans e7
  have e12 := (Wv12_of_ne m c b h12).trans <| (Wv11_of_ne m c b h11).trans <| (V10_of m c b h10).trans <| (V9_of m c b h9).trans e8
  have e14 := (StableHlo.after_of_writes_sub hostOps2_1 _ hostOps2_1_writes h14).trans <|
    (StableHlo.after_of_writes_sub hostOps2 _ hostOps2_writes h13).trans e12
  have e18 := (Wv18_of_ne m c b h18).trans <| (Wv17_of_ne m c b h17).trans <|
    (StableHlo.after_of_writes_sub hostOps2_3 _ hostOps2_3_writes h16).trans <|
    (StableHlo.after_of_writes_sub hostOps2_2 _ hostOps2_2_writes h15).trans e14
  exact ⟨e5, e7, e8, e12, e14, e18, (StableHlo.after_of_writes_sub hostOps4 _ hostOps4_writes h19).trans e18⟩

/-- What the frame claims ask of a final memory, from `run_all`'s conclusion. -/
theorem args_kept (c : Dev nD) (s : MemSt nD τ sig (Elt F))
    (h : ∀ b ∈ Pipeline.ucRefs τ sig, s.mem (((c : Thread nD τ)).1, b) = Wv19 m c b) :
    args.Forall fun b => s.mem ((c : Thread nD τ).loc b) = m ((c : Thread nD τ).loc b) :=
  List.forall_iff_forall_mem.mpr fun b hb =>
    (h _ (mem_uc b ((by decide : ∀ b ∈ args, ¬ (Proc.devRef .tc b : DevRef τ sig).isScoped) b hb))).trans (Wv_arg m c b hb).2.2.2.2.2.2

end Cert.Kernel.Hand

end
-- ==== Proof.IRuns0.lean ====
import proofs.«406331_j48928267436271_1_alg».proof.Proof.Gen.KernelIdeal.Launch
import proofs.«406331_j48928267436271_1_alg».proof.Proof.Gen.KernelIdeal.Skeleton
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ (Pipeline.UD sig nD τ) ℕ

abbrev condA0 (i : grid0.Coords) : Prop := (Scalar.cmpi .ne (Scalar.extui (Scalar.cmpi .eq (BitVec.ofNat 32 (i 1).val) 0#32)) 0#32) = 1#1
abbrev condB0 (i : grid0.Coords) : Prop := k0_cond2 i = 1#1

theorem zeros2 : (![0, 0] : Fin 2 → ℕ) = fun _ => 0 := by funext a; fin_cases a <;> rfl

/-- In every case the last store into a block covers it, so the block reads back as that store's payload; a block not stored into keeps what it held. -/
theorem run0 (c : Dev nD) (E : Set ℕ) (i : grid0.Coords)
    (arg2 : Memref sig .tc .vmem S2048x1 .i32) (harg2 : arg2.IsWhole) (arg3 : Memref sig .tc .vmem S1024x64 .f32) (harg3 : arg3.IsWhole)
    (arg4 : Memref sig .tc .vmem S2048x64 .f32) (harg4 : arg4.IsWhole) (arg5 : Memref sig .tc .vmem S2048x64 .f32) (harg5 : arg5.IsWhole)
    (hAB : ¬ (condA0 i ∧ condB0 i))
    (x0 : Vec F S2048x1 .i32) (x1 : Vec F S1024x64 .f32) (s y4 : Vec F S2048x64 .f32) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare s
        ∗ (iprop(owns (c : Thread nD τ) arg2 fullShare x0 ∗ owns (c : Thread nD τ) arg3 fullShare x1
            ∗ owns (c : Thread nD τ) arg4 fullShare (if condB0 i then k0_pay2 i x0 x1 (if condA0 i then k0_pay1 else s) else y4)
            ∗ owns (c : Thread nD τ) arg5 fullShare (k0_pay2 i x0 x1 (if condA0 i then k0_pay1 else s))) -∗ K ⟨⟩))
      ⊢ wp frame (wpE (defs₀ (F := F)) Variants.none c none) E (cc0__gather_kernel i arg2 harg2 arg3 harg3 arg4 harg4 arg5 harg5) K := by
  unfold owns
  iintro ⟨⟨%f0, %h0, H0⟩, ⟨%f1, %h1, H1⟩, ⟨%f4, %h4, H4⟩, ⟨%f5, %h5, H5⟩, Hk⟩
  split_ifs
  · exact absurd ⟨‹_›, ‹_›⟩ hAB
  all_goals
    simp only [cc0__gather_kernel_eq_skeleton]; unfold cc0__gather_kernel_skel
    sl_exec
    sl_step
    iapply Hk
    isplitl [H0]; swap; isplitl [H1]; swap; isplitl [H4]
    all_goals
      iexists _; isplitr; swap; iassumption
      ipureintro
      first
      | with_reducible assumption
      | sl_unfold_words
        rw [View.read_writes_eq_canon, View.canon_cons_unit_zero zeros2]
        · simp only [View.readAt_eq_ld, h0, h1, h5, View.ld_unit_zero (S := S2048x1) zeros2, View.ld_unit_zero (S := S1024x64) zeros2, View.ld_unit_zero (S := S2048x64) zeros2, View.readCov_unit_zero (S := S2048x64) _ zeros2]
        · exact fun y => ⟨_, List.mem_cons_self, View.mem_set_unit_zero zeros2 Facts₀.inb_S2048x64_S2048x64_0_0 y⟩

end Cert.KernelIdeal.Hand

end
-- ==== Proof.IData0.lean ====
import proofs.«406331_j48928267436271_1_alg».proof.Proof.Gen.KernelIdeal.Launch
import proofs.«406331_j48928267436271_1_alg».proof.Proof.Gen.KernelIdeal.Skeleton
import proofs.«406331_j48928267436271_1_alg».proof.Proof.IRuns0
import proofs.«406331_j48928267436271_1_alg».proof.Proof.LibRunFold

noncomputable section

namespace Cert.KernelIdeal.Hand

open Cert.KernelIdeal Cert.KernelIdeal.Gen Cert.LibRunFold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xw0 (c : Dev nD) (t : Fin cfg0.N) : Vec F S2048x1 .i32 := iblk0 V c 0 t
abbrev xt0 (c : Dev nD) (t : Fin cfg0.N) : Vec F S1024x64 .f32 := iblk0 V c 1 t

theorem N0_val : cfg0.N = 19159 := N_0
theorem lt0 (t : Fin cfg0.N) : t.val < 19159 := lt_of_lt_of_eq t.isLt N0_val

theorem coordIn0 (t : Fin cfg0.N) : ((grid0.coords t) 1).val = t.val % 49 := by
  show t.val / grid0.stride 1 % 49 = _
  rw [show grid0.stride 1 = 1 from by decide, Nat.div_one]

theorem coordOut0 (t : Fin cfg0.N) : ((grid0.coords t) 0).val = t.val / 49 := by
  show t.val / grid0.stride 0 % 391 = _
  rw [show grid0.stride 0 = 49 from by decide]
  exact Nat.mod_eq_of_lt (by have := lt0 t; omega)

theorem index0_0 (t : Fin cfg0.N) : (cfg0.win 0).index t = ![t.val / 49, 0] := by
  show cc0_transform_0 (grid0.coords t) = _
  unfold cc0_transform_0; dsimp only
  rw [coordOut0, toNat_small (t.val / 49) (by have := lt0 t; omega)]
  rfl
theorem index0_1 (t : Fin cfg0.N) : (cfg0.win 1).index t = ![t.val % 49, 0] := by
  show cc0_transform_1 (grid0.coords t) = _
  unfold cc0_transform_1; dsimp only
  rw [coordIn0, toNat_small (t.val % 49) (by have := lt0 t; omega)]
  rfl
theorem index0_2 (t : Fin cfg0.N) : (cfg0.win 2).index t = ![t.val / 49, 0] := by
  show cc0_transform_2 (grid0.coords t) = _
  unfold cc0_transform_2; dsimp only
  rw [coordOut0, toNat_small (t.val / 49) (by have := lt0 t; omega)]
  rfl

theorem flush0_2_iff (t : Fin cfg0.N) : (cfg0.win 2).flush t = true ↔ t.val % 49 = 48 := by
  unfold Pipeline.Window.flush
  rw [show (cfg0.win 2).isOut = true from rfl, Bool.true_and, Bool.or_eq_true, decide_eq_true_eq, decide_eq_true_eq]
  exact (run_end_iff (by decide) ⟨391, N_0⟩ _ index0_2 t).trans (by omega)

theorem hcondA0 (t : Fin cfg0.N) : condA0 (grid0.coords t) ↔ t.val % 49 = 0 := by
  unfold condA0; rw [coordIn0]; exact eq_word _ 0 (by omega) (by omega)

theorem hcondB0 (t : Fin cfg0.N) : condB0 (grid0.coords t) ↔ t.val % 49 = 48 := by
  unfold condB0 k0_cond2; dsimp only; rw [coordIn0]; exact eq_word _ 48 (by omega) (by omega)

abbrev ms0_0 (t : Fin cfg0.N) : Memref sig .tc .vmem S2048x1 .i32 := win0_0.stage (cfg0.slots t 0)
abbrev ms0_1 (t : Fin cfg0.N) : Memref sig .tc .vmem S1024x64 .f32 := win0_1.stage (cfg0.slots t 1)
abbrev ms0_2 (t : Fin cfg0.N) : Memref sig .tc .vmem S2048x64 .f32 := win0_2.stage (cfg0.slots t 2)
abbrev scM0 : Memref sig .tc .vmem S2048x64 .f32 := Memref.whole cc0_scratch0

/-- The accumulator after each point: the body's stored value over the zero vector where a run of 49 starts, over what the point before left elsewhere. -/
def acc0 (c : Dev nD) : (n : ℕ) → n < cfg0.N → Vec F S2048x64 .f32 :=
  fold 49 k0_pay1 fun n h => k0_pay2 (grid0.coords ⟨n, h⟩) (xw0 V c ⟨n, h⟩) (xt0 V c ⟨n, h⟩)

theorem acc0_first (c : Dev nD) (t : Fin cfg0.N) (h : t.val % 49 = 0) :
    acc0 V c t.val t.isLt = k0_pay2 (grid0.coords t) (xw0 V c t) (xt0 V c t) k0_pay1 := fold_first _ _ _ _ _ h

theorem acc0_next (c : Dev nD) (t : Fin cfg0.N) (h : ¬ t.val % 49 = 0) :
    acc0 V c t.val t.isLt = k0_pay2 (grid0.coords t) (xw0 V c t) (xt0 V c t)
      (acc0 V c (t.val - 1) (Nat.lt_of_le_of_lt (Nat.sub_le _ _) t.isLt)) := fold_next _ _ _ _ _ h

abbrev others0 (c : Dev nD) : sProp 𝕄 :=
  Pipeline.scopedRestBut (Ix := Unit) (Name := ℕ) (U := Pipeline.UD sig nD τ) (Lvl := ℕ) (Val := Elt F) spec0 c [cc0_scratch0]

theorem PhiA0_eq (c : Dev nD) :
    (Pipeline.ΦA spec0 c : sProp 𝕄)
      = opened c scM0 (others0 (F := F) c) := by
  unfold Pipeline.ΦA opened
  rw [Pipeline.scopedRest_split_of_list spec0 c [cc0_scratch0] (by decide) (by decide)]
  simp only [scM0, owns_whole]; rfl

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := carried c scM0 (Pipeline.ΦA spec0 c) (others0 (F := F) c) (acc0 V c) t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem leaves0_2 (c : Dev nD) (t : Fin cfg0.N) (d) :
    owns (c : Thread nD τ) (ms0_2 t) fullShare (if condB0 (grid0.coords t) then acc0 V c t.val t.isLt else (dat0 V c).before 2 t d)
      ⊢ (dat0 V c).leavesExact 2 t := by
  by_cases hB : condB0 (grid0.coords t)
  · rw [if_pos hB, show (dat0 V c).leavesExact 2 t = owns (c : Thread nD τ) (ms0_2 t) fullShare ((dat0 V c).after 2 t) from by
      unfold Dat.leavesExact
      rw [show cfg0.idle 2 (grid0.coords t) = false from by
        show (!(k0_cond2 (grid0.coords t) == 1#1)) = false
        rw [Bool.not_eq_false', beq_iff_eq]; exact hB], after0_2]
  · rw [if_neg hB, Dat.leavesExact_idle (dat0 V c) 2 t
      (by show (!(k0_cond2 (grid0.coords t) == 1#1)) = true
          rw [Bool.not_eq_true', beq_eq_false_iff_ne]; exact hB)
      (by rw [Bool.eq_false_iff]; exact fun hf => hB ((hcondB0 t).mpr ((flush0_2_iff t).mp hf)))]
    iintro H; iexists _; iexact H

/-- One step of the accumulator, whichever case the point is in. -/
theorem accStep0 (c : Dev nD) (t : Fin cfg0.N) (s : Vec F S2048x64 .f32)
    (hs : ∀ hz : t.val ≠ 0, s = acc0 V c (t.val - 1) (by have := t.isLt; omega)) :
    k0_pay2 (grid0.coords t) (xw0 V c t) (xt0 V c t) (if condA0 (grid0.coords t) then k0_pay1 else s) = acc0 V c t.val t.isLt := by
  by_cases h0 : t.val % 49 = 0
  · rw [if_pos ((hcondA0 t).mpr h0), acc0_first V c t h0]
  · rw [if_neg (fun h => h0 ((hcondA0 t).mp h)), acc0_next V c t h0, hs fun hz => h0 (by rw [hz])]

abbrev bodyAt0 (t : Fin cfg0.N) : Prog (TpuEff nD τ sig (Elt F) Λ₀ .tc) PUnit :=
  cc0__gather_kernel (grid0.coords t) (ms0_0 t) (hstage0_0 ((cfg0.slots t 0).cast nbuf0_0)) (ms0_1 t) (hstage0_1 ((cfg0.slots t 1).cast nbuf0_1))
    (ms0_2 t) (hstage0_2 ((cfg0.slots t 2).cast nbuf0_2)) scM0 (Memref.isWhole_whole _)

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem Phi0_castSucc (c : Dev nD) (t : Fin cfg0.N) :
    (dat0 V c).Φ t.castSucc = carried c scM0 (Pipeline.ΦA spec0 c) (others0 (F := F) c) (acc0 V c) t.val (Nat.le_of_lt t.isLt) := by
  dsimp only [dat0]; simp only [Fin.coe_castSucc]

theorem Phi0_succ (c : Dev nD) (t : Fin cfg0.N) :
    (dat0 V c).Φ t.succ = named c scM0 (others0 (F := F) c) (acc0 V c t.val t.isLt) := rfl

theorem leaves0_0 (c : Dev nD) (t : Fin cfg0.N) :
    (dat0 V c).leavesExact 0 t = owns (c : Thread nD τ) (ms0_0 t) fullShare (iblk0 V c 0 t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (ms0_1 t) fullShare (iblk0 V c 1 t) := by
  unfold Dat.leavesExact; rw [show cfg0.idle 1 (cfg0.grid.coords t) = false from rfl, after0_1]

/-- The body at any point: the invariant hands it the accumulator at what the point before left (at anything where there is none) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl, Phi0_succ, Phi0_castSucc, leaves0_0, leaves0_1]
  iintro ⟨HPhi, Ho, ⟨%d0, H0⟩, ⟨%d1, H1⟩, ⟨%d2, H2⟩⟩
  ihave HPhi' := (carried_named c scM0 _ _ (acc0 V c) (Entails.of_eq (PhiA0_eq c)) t.val (Nat.le_of_lt t.isLt)) $$ HPhi
  icases HPhi' with ⟨%s, %hs, ⟨HS, Hoth⟩, Hg⟩
  iapply (run0 c Set.univ _ _ _ _ _ _ _ _ _ (fun h => by have := (hcondA0 t).mp h.1; have := (hcondB0 t).mp h.2; omega)
    (xw0 V c t) (xt0 V c t) s _ _)
  isplitl [H0]; · iexact H0
  isplitl [H1]; · iexact H1
  isplitl [H2]; · iexact H2
  isplitl [HS]; · iexact HS
  rw [accStep0 V c t s hs]
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves0_2 V c t d2); iexact H2

theorem body_obligation0 (c : Dev nD) : BodyObligation (dat0 (F := F) V c) (defs₀ (F := F)) Variants.none () Set.univ := fun t => by
  rw [bigSep_W0, bigSep_W0]
  exact sound_body0 V c t

theorem hout0 (c : Dev nD) : (dat0 V c).Φ (Fin.last cfg0.N) ⊢ Pipeline.ΦA spec0 c :=
  (carried_forget c scM0 _ _ (acc0 V c) (Entails.of_eq (PhiA0_eq c)) (Fin.last cfg0.N).val (Nat.le_of_lt_succ (Fin.last cfg0.N).isLt)).trans
    (Entails.of_eq (PhiA0_eq c).symm)

end Cert.KernelIdeal.Hand

end
-- ==== Proof.IRuns1.lean ====
import proofs.«406331_j48928267436271_1_alg».proof.Proof.Gen.KernelIdeal.Launch
import proofs.«406331_j48928267436271_1_alg».proof.Proof.Gen.KernelIdeal.Skeleton
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ (Pipeline.UD sig nD τ) ℕ

abbrev condA1 (i : grid1.Coords) : Prop := (Scalar.cmpi .ne (Scalar.extui (Scalar.cmpi .eq (BitVec.ofNat 32 (i 1).val) 0#32)) 0#32) = 1#1
abbrev condB1 (i : grid1.Coords) : Prop := k1_cond2 i = 1#1

theorem zeros2 : (![0, 0] : Fin 2 → ℕ) = fun _ => 0 := by funext a; fin_cases a <;> rfl

/-- In every case the last store into a block covers it, so the block reads back as that store's payload; a block not stored into keeps what it held. -/
theorem run1 (c : Dev nD) (E : Set ℕ) (i : grid1.Coords)
    (arg2 : Memref sig .tc .vmem S1x2048 .i32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1024x64 .f32) (harg5 : arg5.IsWhole)
    (hAB : ¬ (condA1 i ∧ condB1 i))
    (x0 : Vec F S1x2048 .i32) (x1 : Vec F S2048x64 .f32) (s y4 : Vec F S1024x64 .f32) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare s
        ∗ (iprop(owns (c : Thread nD τ) arg2 fullShare x0 ∗ owns (c : Thread nD τ) arg3 fullShare x1
            ∗ owns (c : Thread nD τ) arg4 fullShare (if condB1 i then k1_pay2 i x0 x1 (if condA1 i then k1_pay1 else s) else y4)
            ∗ owns (c : Thread nD τ) arg5 fullShare (k1_pay2 i x0 x1 (if condA1 i then k1_pay1 else s))) -∗ K ⟨⟩))
      ⊢ wp frame (wpE (defs₀ (F := F)) Variants.none c none) E (cc1__scatter_kernel i arg2 harg2 arg3 harg3 arg4 harg4 arg5 harg5) K := by
  unfold owns
  iintro ⟨⟨%f0, %h0, H0⟩, ⟨%f1, %h1, H1⟩, ⟨%f4, %h4, H4⟩, ⟨%f5, %h5, H5⟩, Hk⟩
  split_ifs
  · exact absurd ⟨‹_›, ‹_›⟩ hAB
  all_goals
    simp only [cc1__scatter_kernel_eq_skeleton]; unfold cc1__scatter_kernel_skel
    sl_exec
    sl_step
    iapply Hk
    isplitl [H0]; swap; isplitl [H1]; swap; isplitl [H4]
    all_goals
      iexists _; isplitr; swap; iassumption
      ipureintro
      first
      | with_reducible assumption
      | sl_unfold_words
        rw [View.read_writes_eq_canon, View.canon_cons_unit_zero zeros2]
        · simp only [View.readAt_eq_ld, h0, h1, h5, View.ld_unit_zero (S := S1x2048) zeros2, View.ld_unit_zero (S := S2048x64) zeros2, View.ld_unit_zero (S := S1024x64) zeros2, View.readCov_unit_zero (S := S1024x64) _ zeros2]
        · exact fun y => ⟨_, List.mem_cons_self, View.mem_set_unit_zero zeros2 Facts₀.inb_S1024x64_S1024x64_0_0 y⟩

end Cert.KernelIdeal.Hand

end
-- ==== Proof.IData1.lean ====
import proofs.«406331_j48928267436271_1_alg».proof.Proof.Gen.KernelIdeal.Launch
import proofs.«406331_j48928267436271_1_alg».proof.Proof.Gen.KernelIdeal.Skeleton
import proofs.«406331_j48928267436271_1_alg».proof.Proof.IRuns1
import proofs.«406331_j48928267436271_1_alg».proof.Proof.LibRunFold

noncomputable section

namespace Cert.KernelIdeal.Hand

open Cert.KernelIdeal Cert.KernelIdeal.Gen Cert.LibRunFold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev xw1 (c : Dev nD) (t : Fin cfg1.N) : Vec F S1x2048 .i32 := iblk1 V c 0 t
abbrev xt1 (c : Dev nD) (t : Fin cfg1.N) : Vec F S2048x64 .f32 := iblk1 V c 1 t

theorem N1_val : cfg1.N = 19159 := N_1
theorem lt1 (t : Fin cfg1.N) : t.val < 19159 := lt_of_lt_of_eq t.isLt N1_val

theorem coordIn1 (t : Fin cfg1.N) : ((grid1.coords t) 1).val = t.val % 391 := by
  show t.val / grid1.stride 1 % 391 = _
  rw [show grid1.stride 1 = 1 from by decide, Nat.div_one]

theorem coordOut1 (t : Fin cfg1.N) : ((grid1.coords t) 0).val = t.val / 391 := by
  show t.val / grid1.stride 0 % 49 = _
  rw [show grid1.stride 0 = 391 from by decide]
  exact Nat.mod_eq_of_lt (by have := lt1 t; omega)

theorem index1_0 (t : Fin cfg1.N) : (cfg1.win 0).index t = ![0, t.val % 391] := by
  show cc1_transform_0 (grid1.coords t) = _
  unfold cc1_transform_0; dsimp only
  rw [coordIn1, toNat_small (t.val % 391) (by have := lt1 t; omega)]
  rfl
theorem index1_1 (t : Fin cfg1.N) : (cfg1.win 1).index t = ![t.val % 391, 0] := by
  show cc1_transform_1 (grid1.coords t) = _
  unfold cc1_transform_1; dsimp only
  rw [coordIn1, toNat_small (t.val % 391) (by have := lt1 t; omega)]
  rfl
theorem index1_2 (t : Fin cfg1.N) : (cfg1.win 2).index t = ![t.val / 391, 0] := by
  show cc1_transform_2 (grid1.coords t) = _
  unfold cc1_transform_2; dsimp only
  rw [coordOut1, toNat_small (t.val / 391) (by have := lt1 t; omega)]
  rfl

theorem flush1_2_iff (t : Fin cfg1.N) : (cfg1.win 2).flush t = true ↔ t.val % 391 = 390 := by
  unfold Pipeline.Window.flush
  rw [show (cfg1.win 2).isOut = true from rfl, Bool.true_and, Bool.or_eq_true, decide_eq_true_eq, decide_eq_true_eq]
  exact (run_end_iff (by decide) ⟨49, N_1⟩ _ index1_2 t).trans (by omega)

theorem hcondA1 (t : Fin cfg1.N) : condA1 (grid1.coords t) ↔ t.val % 391 = 0 := by
  unfold condA1; rw [coordIn1]; exact eq_word _ 0 (by omega) (by omega)

theorem hcondB1 (t : Fin cfg1.N) : condB1 (grid1.coords t) ↔ t.val % 391 = 390 := by
  unfold condB1 k1_cond2; dsimp only; rw [coordIn1]; exact eq_word _ 390 (by omega) (by omega)

abbrev ms1_0 (t : Fin cfg1.N) : Memref sig .tc .vmem S1x2048 .i32 := win1_0.stage (cfg1.slots t 0)
abbrev ms1_1 (t : Fin cfg1.N) : Memref sig .tc .vmem S2048x64 .f32 := win1_1.stage (cfg1.slots t 1)
abbrev ms1_2 (t : Fin cfg1.N) : Memref sig .tc .vmem S1024x64 .f32 := win1_2.stage (cfg1.slots t 2)
abbrev scM1 : Memref sig .tc .vmem S1024x64 .f32 := Memref.whole cc1_scratch0

/-- The accumulator after each point: the body's stored value over the zero vector where a run of 391 starts, over what the point before left elsewhere. -/
def acc1 (c : Dev nD) : (n : ℕ) → n < cfg1.N → Vec F S1024x64 .f32 :=
  fold 391 k1_pay1 fun n h => k1_pay2 (grid1.coords ⟨n, h⟩) (xw1 V c ⟨n, h⟩) (xt1 V c ⟨n, h⟩)

theorem acc1_first (c : Dev nD) (t : Fin cfg1.N) (h : t.val % 391 = 0) :
    acc1 V c t.val t.isLt = k1_pay2 (grid1.coords t) (xw1 V c t) (xt1 V c t) k1_pay1 := fold_first _ _ _ _ _ h

theorem acc1_next (c : Dev nD) (t : Fin cfg1.N) (h : ¬ t.val % 391 = 0) :
    acc1 V c t.val t.isLt = k1_pay2 (grid1.coords t) (xw1 V c t) (xt1 V c t)
      (acc1 V c (t.val - 1) (Nat.lt_of_le_of_lt (Nat.sub_le _ _) t.isLt)) := fold_next _ _ _ _ _ h

abbrev others1 (c : Dev nD) : sProp 𝕄 :=
  Pipeline.scopedRestBut (Ix := Unit) (Name := ℕ) (U := Pipeline.UD sig nD τ) (Lvl := ℕ) (Val := Elt F) spec1 c [cc1_scratch0]

theorem PhiA1_eq (c : Dev nD) :
    (Pipeline.ΦA spec1 c : sProp 𝕄)
      = opened c scM1 (others1 (F := F) c) := by
  unfold Pipeline.ΦA opened
  rw [Pipeline.scopedRest_split_of_list spec1 c [cc1_scratch0] (by decide) (by decide)]
  simp only [scM1, owns_whole]; rfl

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := carried c scM1 (Pipeline.ΦA spec1 c) (others1 (F := F) c) (acc1 V c) t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem leaves1_2 (c : Dev nD) (t : Fin cfg1.N) (d) :
    owns (c : Thread nD τ) (ms1_2 t) fullShare (if condB1 (grid1.coords t) then acc1 V c t.val t.isLt else (dat1 V c).before 2 t d)
      ⊢ (dat1 V c).leavesExact 2 t := by
  by_cases hB : condB1 (grid1.coords t)
  · rw [if_pos hB, show (dat1 V c).leavesExact 2 t = owns (c : Thread nD τ) (ms1_2 t) fullShare ((dat1 V c).after 2 t) from by
      unfold Dat.leavesExact
      rw [show cfg1.idle 2 (grid1.coords t) = false from by
        show (!(k1_cond2 (grid1.coords t) == 1#1)) = false
        rw [Bool.not_eq_false', beq_iff_eq]; exact hB], after1_2]
  · rw [if_neg hB, Dat.leavesExact_idle (dat1 V c) 2 t
      (by show (!(k1_cond2 (grid1.coords t) == 1#1)) = true
          rw [Bool.not_eq_true', beq_eq_false_iff_ne]; exact hB)
      (by rw [Bool.eq_false_iff]; exact fun hf => hB ((hcondB1 t).mpr ((flush1_2_iff t).mp hf)))]
    iintro H; iexists _; iexact H

/-- One step of the accumulator, whichever case the point is in. -/
theorem accStep1 (c : Dev nD) (t : Fin cfg1.N) (s : Vec F S1024x64 .f32)
    (hs : ∀ hz : t.val ≠ 0, s = acc1 V c (t.val - 1) (by have := t.isLt; omega)) :
    k1_pay2 (grid1.coords t) (xw1 V c t) (xt1 V c t) (if condA1 (grid1.coords t) then k1_pay1 else s) = acc1 V c t.val t.isLt := by
  by_cases h0 : t.val % 391 = 0
  · rw [if_pos ((hcondA1 t).mpr h0), acc1_first V c t h0]
  · rw [if_neg (fun h => h0 ((hcondA1 t).mp h)), acc1_next V c t h0, hs fun hz => h0 (by rw [hz])]

abbrev bodyAt1 (t : Fin cfg1.N) : Prog (TpuEff nD τ sig (Elt F) Λ₀ .tc) PUnit :=
  cc1__scatter_kernel (grid1.coords t) (ms1_0 t) (hstage1_0 ((cfg1.slots t 0).cast nbuf1_0)) (ms1_1 t) (hstage1_1 ((cfg1.slots t 1).cast nbuf1_1))
    (ms1_2 t) (hstage1_2 ((cfg1.slots t 2).cast nbuf1_2)) scM1 (Memref.isWhole_whole _)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem Phi1_castSucc (c : Dev nD) (t : Fin cfg1.N) :
    (dat1 V c).Φ t.castSucc = carried c scM1 (Pipeline.ΦA spec1 c) (others1 (F := F) c) (acc1 V c) t.val (Nat.le_of_lt t.isLt) := by
  dsimp only [dat1]; simp only [Fin.coe_castSucc]

theorem Phi1_succ (c : Dev nD) (t : Fin cfg1.N) :
    (dat1 V c).Φ t.succ = named c scM1 (others1 (F := F) c) (acc1 V c t.val t.isLt) := rfl

theorem leaves1_0 (c : Dev nD) (t : Fin cfg1.N) :
    (dat1 V c).leavesExact 0 t = owns (c : Thread nD τ) (ms1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact; rw [show cfg1.idle 1 (cfg1.grid.coords t) = false from rfl, after1_1]

/-- The body at any point: the invariant hands it the accumulator at what the point before left (at anything where there is none) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl, Phi1_succ, Phi1_castSucc, leaves1_0, leaves1_1]
  iintro ⟨HPhi, Ho, ⟨%d0, H0⟩, ⟨%d1, H1⟩, ⟨%d2, H2⟩⟩
  ihave HPhi' := (carried_named c scM1 _ _ (acc1 V c) (Entails.of_eq (PhiA1_eq c)) t.val (Nat.le_of_lt t.isLt)) $$ HPhi
  icases HPhi' with ⟨%s, %hs, ⟨HS, Hoth⟩, Hg⟩
  iapply (run1 c Set.univ _ _ _ _ _ _ _ _ _ (fun h => by have := (hcondA1 t).mp h.1; have := (hcondB1 t).mp h.2; omega)
    (xw1 V c t) (xt1 V c t) s _ _)
  isplitl [H0]; · iexact H0
  isplitl [H1]; · iexact H1
  isplitl [H2]; · iexact H2
  isplitl [HS]; · iexact HS
  rw [accStep1 V c t s hs]
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves1_2 V c t d2); iexact H2

theorem body_obligation1 (c : Dev nD) : BodyObligation (dat1 (F := F) V c) (defs₀ (F := F)) Variants.none () Set.univ := fun t => by
  rw [bigSep_W1, bigSep_W1]
  exact sound_body1 V c t

theorem hout1 (c : Dev nD) : (dat1 V c).Φ (Fin.last cfg1.N) ⊢ Pipeline.ΦA spec1 c :=
  (carried_forget c scM1 _ _ (acc1 V c) (Entails.of_eq (PhiA1_eq c)) (Fin.last cfg1.N).val (Nat.le_of_lt_succ (Fin.last cfg1.N).isLt)).trans
    (Entails.of_eq (PhiA1_eq c).symm)

end Cert.KernelIdeal.Hand

end
-- ==== Proof.IRuns2.lean ====
import proofs.«406331_j48928267436271_1_alg».proof.Proof.Gen.KernelIdeal.Launch
import proofs.«406331_j48928267436271_1_alg».proof.Proof.Gen.KernelIdeal.Skeleton
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ (Pipeline.UD sig nD τ) ℕ

abbrev condA2 (i : grid2.Coords) : Prop := (Scalar.cmpi .ne (Scalar.extui (Scalar.cmpi .eq (BitVec.ofNat 32 (i 1).val) 0#32)) 0#32) = 1#1
abbrev condB2 (i : grid2.Coords) : Prop := k2_cond2 i = 1#1

theorem zeros2 : (![0, 0] : Fin 2 → ℕ) = fun _ => 0 := by funext a; fin_cases a <;> rfl

/-- In every case the last store into a block covers it, so the block reads back as that store's payload; a block not stored into keeps what it held. -/
theorem run2 (c : Dev nD) (E : Set ℕ) (i : grid2.Coords)
    (arg2 : Memref sig .tc .vmem S2048x1 .i32) (harg2 : arg2.IsWhole) (arg3 : Memref sig .tc .vmem S1024x64 .f32) (harg3 : arg3.IsWhole)
    (arg4 : Memref sig .tc .vmem S2048x64 .f32) (harg4 : arg4.IsWhole) (arg5 : Memref sig .tc .vmem S2048x64 .f32) (harg5 : arg5.IsWhole)
    (hAB : ¬ (condA2 i ∧ condB2 i))
    (x0 : Vec F S2048x1 .i32) (x1 : Vec F S1024x64 .f32) (s y4 : Vec F S2048x64 .f32) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare s
        ∗ (iprop(owns (c : Thread nD τ) arg2 fullShare x0 ∗ owns (c : Thread nD τ) arg3 fullShare x1
            ∗ owns (c : Thread nD τ) arg4 fullShare (if condB2 i then k2_pay2 i x0 x1 (if condA2 i then k2_pay1 else s) else y4)
            ∗ owns (c : Thread nD τ) arg5 fullShare (k2_pay2 i x0 x1 (if condA2 i then k2_pay1 else s))) -∗ K ⟨⟩))
      ⊢ wp frame (wpE (defs₀ (F := F)) Variants.none c none) E (cc2__gather_kernel i arg2 harg2 arg3 harg3 arg4 harg4 arg5 harg5) K := by
  unfold owns
  iintro ⟨⟨%f0, %h0, H0⟩, ⟨%f1, %h1, H1⟩, ⟨%f4, %h4, H4⟩, ⟨%f5, %h5, H5⟩, Hk⟩
  split_ifs
  · exact absurd ⟨‹_›, ‹_›⟩ hAB
  all_goals
    simp only [cc2__gather_kernel_eq_skeleton]; unfold cc2__gather_kernel_skel
    sl_exec
    sl_step
    iapply Hk
    isplitl [H0]; swap; isplitl [H1]; swap; isplitl [H4]
    all_goals
      iexists _; isplitr; swap; iassumption
      ipureintro
      first
      | with_reducible assumption
      | sl_unfold_words
        rw [View.read_writes_eq_canon, View.canon_cons_unit_zero zeros2]
        · simp only [View.readAt_eq_ld, h0, h1, h5, View.ld_unit_zero (S := S2048x1) zeros2, View.ld_unit_zero (S := S1024x64) zeros2, View.ld_unit_zero (S := S2048x64) zeros2, View.readCov_unit_zero (S := S2048x64) _ zeros2]
        · exact fun y => ⟨_, List.mem_cons_self, View.mem_set_unit_zero zeros2 Facts₀.inb_S2048x64_S2048x64_0_0 y⟩

end Cert.KernelIdeal.Hand

end
-- ==== Proof.IData2.lean ====
import proofs.«406331_j48928267436271_1_alg».proof.Proof.Gen.KernelIdeal.Launch
import proofs.«406331_j48928267436271_1_alg».proof.Proof.Gen.KernelIdeal.Skeleton
import proofs.«406331_j48928267436271_1_alg».proof.Proof.IRuns2
import proofs.«406331_j48928267436271_1_alg».proof.Proof.LibRunFold

noncomputable section

namespace Cert.KernelIdeal.Hand

open Cert.KernelIdeal Cert.KernelIdeal.Gen Cert.LibRunFold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xw2 (c : Dev nD) (t : Fin cfg2.N) : Vec F S2048x1 .i32 := iblk2 V c 0 t
abbrev xt2 (c : Dev nD) (t : Fin cfg2.N) : Vec F S1024x64 .f32 := iblk2 V c 1 t

theorem N2_val : cfg2.N = 19159 := N_2
theorem lt2 (t : Fin cfg2.N) : t.val < 19159 := lt_of_lt_of_eq t.isLt N2_val

theorem coordIn2 (t : Fin cfg2.N) : ((grid2.coords t) 1).val = t.val % 49 := by
  show t.val / grid2.stride 1 % 49 = _
  rw [show grid2.stride 1 = 1 from by decide, Nat.div_one]

theorem coordOut2 (t : Fin cfg2.N) : ((grid2.coords t) 0).val = t.val / 49 := by
  show t.val / grid2.stride 0 % 391 = _
  rw [show grid2.stride 0 = 49 from by decide]
  exact Nat.mod_eq_of_lt (by have := lt2 t; omega)

theorem index2_0 (t : Fin cfg2.N) : (cfg2.win 0).index t = ![t.val / 49, 0] := by
  show cc2_transform_0 (grid2.coords t) = _
  unfold cc2_transform_0; dsimp only
  rw [coordOut2, toNat_small (t.val / 49) (by have := lt2 t; omega)]
  rfl
theorem index2_1 (t : Fin cfg2.N) : (cfg2.win 1).index t = ![t.val % 49, 0] := by
  show cc2_transform_1 (grid2.coords t) = _
  unfold cc2_transform_1; dsimp only
  rw [coordIn2, toNat_small (t.val % 49) (by have := lt2 t; omega)]
  rfl
theorem index2_2 (t : Fin cfg2.N) : (cfg2.win 2).index t = ![t.val / 49, 0] := by
  show cc2_transform_2 (grid2.coords t) = _
  unfold cc2_transform_2; dsimp only
  rw [coordOut2, toNat_small (t.val / 49) (by have := lt2 t; omega)]
  rfl

theorem flush2_2_iff (t : Fin cfg2.N) : (cfg2.win 2).flush t = true ↔ t.val % 49 = 48 := by
  unfold Pipeline.Window.flush
  rw [show (cfg2.win 2).isOut = true from rfl, Bool.true_and, Bool.or_eq_true, decide_eq_true_eq, decide_eq_true_eq]
  exact (run_end_iff (by decide) ⟨391, N_2⟩ _ index2_2 t).trans (by omega)

theorem hcondA2 (t : Fin cfg2.N) : condA2 (grid2.coords t) ↔ t.val % 49 = 0 := by
  unfold condA2; rw [coordIn2]; exact eq_word _ 0 (by omega) (by omega)

theorem hcondB2 (t : Fin cfg2.N) : condB2 (grid2.coords t) ↔ t.val % 49 = 48 := by
  unfold condB2 k2_cond2; dsimp only; rw [coordIn2]; exact eq_word _ 48 (by omega) (by omega)

abbrev ms2_0 (t : Fin cfg2.N) : Memref sig .tc .vmem S2048x1 .i32 := win2_0.stage (cfg2.slots t 0)
abbrev ms2_1 (t : Fin cfg2.N) : Memref sig .tc .vmem S1024x64 .f32 := win2_1.stage (cfg2.slots t 1)
abbrev ms2_2 (t : Fin cfg2.N) : Memref sig .tc .vmem S2048x64 .f32 := win2_2.stage (cfg2.slots t 2)
abbrev scM2 : Memref sig .tc .vmem S2048x64 .f32 := Memref.whole cc2_scratch0

/-- The accumulator after each point: the body's stored value over the zero vector where a run of 49 starts, over what the point before left elsewhere. -/
def acc2 (c : Dev nD) : (n : ℕ) → n < cfg2.N → Vec F S2048x64 .f32 :=
  fold 49 k2_pay1 fun n h => k2_pay2 (grid2.coords ⟨n, h⟩) (xw2 V c ⟨n, h⟩) (xt2 V c ⟨n, h⟩)

theorem acc2_first (c : Dev nD) (t : Fin cfg2.N) (h : t.val % 49 = 0) :
    acc2 V c t.val t.isLt = k2_pay2 (grid2.coords t) (xw2 V c t) (xt2 V c t) k2_pay1 := fold_first _ _ _ _ _ h

theorem acc2_next (c : Dev nD) (t : Fin cfg2.N) (h : ¬ t.val % 49 = 0) :
    acc2 V c t.val t.isLt = k2_pay2 (grid2.coords t) (xw2 V c t) (xt2 V c t)
      (acc2 V c (t.val - 1) (Nat.lt_of_le_of_lt (Nat.sub_le _ _) t.isLt)) := fold_next _ _ _ _ _ h

abbrev others2 (c : Dev nD) : sProp 𝕄 :=
  Pipeline.scopedRestBut (Ix := Unit) (Name := ℕ) (U := Pipeline.UD sig nD τ) (Lvl := ℕ) (Val := Elt F) spec2 c [cc2_scratch0]

theorem PhiA2_eq (c : Dev nD) :
    (Pipeline.ΦA spec2 c : sProp 𝕄)
      = opened c scM2 (others2 (F := F) c) := by
  unfold Pipeline.ΦA opened
  rw [Pipeline.scopedRest_split_of_list spec2 c [cc2_scratch0] (by decide) (by decide)]
  simp only [scM2, owns_whole]; rfl

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := carried c scM2 (Pipeline.ΦA spec2 c) (others2 (F := F) c) (acc2 V c) t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem leaves2_2 (c : Dev nD) (t : Fin cfg2.N) (d) :
    owns (c : Thread nD τ) (ms2_2 t) fullShare (if condB2 (grid2.coords t) then acc2 V c t.val t.isLt else (dat2 V c).before 2 t d)
      ⊢ (dat2 V c).leavesExact 2 t := by
  by_cases hB : condB2 (grid2.coords t)
  · rw [if_pos hB, show (dat2 V c).leavesExact 2 t = owns (c : Thread nD τ) (ms2_2 t) fullShare ((dat2 V c).after 2 t) from by
      unfold Dat.leavesExact
      rw [show cfg2.idle 2 (grid2.coords t) = false from by
        show (!(k2_cond2 (grid2.coords t) == 1#1)) = false
        rw [Bool.not_eq_false', beq_iff_eq]; exact hB], after2_2]
  · rw [if_neg hB, Dat.leavesExact_idle (dat2 V c) 2 t
      (by show (!(k2_cond2 (grid2.coords t) == 1#1)) = true
          rw [Bool.not_eq_true', beq_eq_false_iff_ne]; exact hB)
      (by rw [Bool.eq_false_iff]; exact fun hf => hB ((hcondB2 t).mpr ((flush2_2_iff t).mp hf)))]
    iintro H; iexists _; iexact H

/-- One step of the accumulator, whichever case the point is in. -/
theorem accStep2 (c : Dev nD) (t : Fin cfg2.N) (s : Vec F S2048x64 .f32)
    (hs : ∀ hz : t.val ≠ 0, s = acc2 V c (t.val - 1) (by have := t.isLt; omega)) :
    k2_pay2 (grid2.coords t) (xw2 V c t) (xt2 V c t) (if condA2 (grid2.coords t) then k2_pay1 else s) = acc2 V c t.val t.isLt := by
  by_cases h0 : t.val % 49 = 0
  · rw [if_pos ((hcondA2 t).mpr h0), acc2_first V c t h0]
  · rw [if_neg (fun h => h0 ((hcondA2 t).mp h)), acc2_next V c t h0, hs fun hz => h0 (by rw [hz])]

abbrev bodyAt2 (t : Fin cfg2.N) : Prog (TpuEff nD τ sig (Elt F) Λ₀ .tc) PUnit :=
  cc2__gather_kernel (grid2.coords t) (ms2_0 t) (hstage2_0 ((cfg2.slots t 0).cast nbuf2_0)) (ms2_1 t) (hstage2_1 ((cfg2.slots t 1).cast nbuf2_1))
    (ms2_2 t) (hstage2_2 ((cfg2.slots t 2).cast nbuf2_2)) scM2 (Memref.isWhole_whole _)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem Phi2_castSucc (c : Dev nD) (t : Fin cfg2.N) :
    (dat2 V c).Φ t.castSucc = carried c scM2 (Pipeline.ΦA spec2 c) (others2 (F := F) c) (acc2 V c) t.val (Nat.le_of_lt t.isLt) := by
  dsimp only [dat2]; simp only [Fin.coe_castSucc]

theorem Phi2_succ (c : Dev nD) (t : Fin cfg2.N) :
    (dat2 V c).Φ t.succ = named c scM2 (others2 (F := F) c) (acc2 V c t.val t.isLt) := rfl

theorem leaves2_0 (c : Dev nD) (t : Fin cfg2.N) :
    (dat2 V c).leavesExact 0 t = owns (c : Thread nD τ) (ms2_0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (ms2_1 t) fullShare (iblk2 V c 1 t) := by
  unfold Dat.leavesExact; rw [show cfg2.idle 1 (cfg2.grid.coords t) = false from rfl, after2_1]

/-- The body at any point: the invariant hands it the accumulator at what the point before left (at anything where there is none) and takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl, Phi2_succ, Phi2_castSucc, leaves2_0, leaves2_1]
  iintro ⟨HPhi, Ho, ⟨%d0, H0⟩, ⟨%d1, H1⟩, ⟨%d2, H2⟩⟩
  ihave HPhi' := (carried_named c scM2 _ _ (acc2 V c) (Entails.of_eq (PhiA2_eq c)) t.val (Nat.le_of_lt t.isLt)) $$ HPhi
  icases HPhi' with ⟨%s, %hs, ⟨HS, Hoth⟩, Hg⟩
  iapply (run2 c Set.univ _ _ _ _ _ _ _ _ _ (fun h => by have := (hcondA2 t).mp h.1; have := (hcondB2 t).mp h.2; omega)
    (xw2 V c t) (xt2 V c t) s _ _)
  isplitl [H0]; · iexact H0
  isplitl [H1]; · iexact H1
  isplitl [H2]; · iexact H2
  isplitl [HS]; · iexact HS
  rw [accStep2 V c t s hs]
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves2_2 V c t d2); iexact H2

theorem body_obligation2 (c : Dev nD) : BodyObligation (dat2 (F := F) V c) (defs₀ (F := F)) Variants.none () Set.univ := fun t => by
  rw [bigSep_W2, bigSep_W2]
  exact sound_body2 V c t

theorem hout2 (c : Dev nD) : (dat2 V c).Φ (Fin.last cfg2.N) ⊢ Pipeline.ΦA spec2 c :=
  (carried_forget c scM2 _ _ (acc2 V c) (Entails.of_eq (PhiA2_eq c)) (Fin.last cfg2.N).val (Nat.le_of_lt_succ (Fin.last cfg2.N).isLt)).trans
    (Entails.of_eq (PhiA2_eq c).symm)

end Cert.KernelIdeal.Hand

end
-- ==== Proof.IRuns3.lean ====
import proofs.«406331_j48928267436271_1_alg».proof.Proof.Gen.KernelIdeal.Launch
import proofs.«406331_j48928267436271_1_alg».proof.Proof.Gen.KernelIdeal.Skeleton
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI

variable {F : FTy → Type} [FloatOps F]

local notation "𝕄" => MT nD τ sig Unit (Elt F) ℕ (Pipeline.UD sig nD τ) ℕ

abbrev condA3 (i : grid3.Coords) : Prop := (Scalar.cmpi .ne (Scalar.extui (Scalar.cmpi .eq (BitVec.ofNat 32 (i 1).val) 0#32)) 0#32) = 1#1
abbrev condB3 (i : grid3.Coords) : Prop := k3_cond2 i = 1#1

theorem zeros2 : (![0, 0] : Fin 2 → ℕ) = fun _ => 0 := by funext a; fin_cases a <;> rfl

/-- In every case the last store into a block covers it, so the block reads back as that store's payload; a block not stored into keeps what it held. -/
theorem run3 (c : Dev nD) (E : Set ℕ) (i : grid3.Coords)
    (arg2 : Memref sig .tc .vmem S1x2048 .i32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1024x64 .f32) (harg5 : arg5.IsWhole)
    (hAB : ¬ (condA3 i ∧ condB3 i))
    (x0 : Vec F S1x2048 .i32) (x1 : Vec F S2048x64 .f32) (s y4 : Vec F S1024x64 .f32) (K : PUnit → sProp 𝕄) :
    iprop(owns (c : Thread nD τ) arg2 fullShare x0 ∗ owns (c : Thread nD τ) arg3 fullShare x1
        ∗ owns (c : Thread nD τ) arg4 fullShare y4 ∗ owns (c : Thread nD τ) arg5 fullShare s
        ∗ (iprop(owns (c : Thread nD τ) arg2 fullShare x0 ∗ owns (c : Thread nD τ) arg3 fullShare x1
            ∗ owns (c : Thread nD τ) arg4 fullShare (if condB3 i then k3_pay2 i x0 x1 (if condA3 i then k3_pay1 else s) else y4)
            ∗ owns (c : Thread nD τ) arg5 fullShare (k3_pay2 i x0 x1 (if condA3 i then k3_pay1 else s))) -∗ K ⟨⟩))
      ⊢ wp frame (wpE (defs₀ (F := F)) Variants.none c none) E (cc3__scatter_kernel i arg2 harg2 arg3 harg3 arg4 harg4 arg5 harg5) K := by
  unfold owns
  iintro ⟨⟨%f0, %h0, H0⟩, ⟨%f1, %h1, H1⟩, ⟨%f4, %h4, H4⟩, ⟨%f5, %h5, H5⟩, Hk⟩
  split_ifs
  · exact absurd ⟨‹_›, ‹_›⟩ hAB
  all_goals
    simp only [cc3__scatter_kernel_eq_skeleton]; unfold cc3__scatter_kernel_skel
    sl_exec
    sl_step
    iapply Hk
    isplitl [H0]; swap; isplitl [H1]; swap; isplitl [H4]
    all_goals
      iexists _; isplitr; swap; iassumption
      ipureintro
      first
      | with_reducible assumption
      | sl_unfold_words
        rw [View.read_writes_eq_canon, View.canon_cons_unit_zero zeros2]
        · simp only [View.readAt_eq_ld, h0, h1, h5, View.ld_unit_zero (S := S1x2048) zeros2, View.ld_unit_zero (S := S2048x64) zeros2, View.ld_unit_zero (S := S1024x64) zeros2, View.readCov_unit_zero (S := S1024x64) _ zeros2]
        · exact fun y => ⟨_, List.mem_cons_self, View.mem_set_unit_zero zeros2 Facts₀.inb_S1024x64_S1024x64_0_0 y⟩

end Cert.KernelIdeal.Hand

end
-- ==== Proof.IData3.lean ====
import proofs.«406331_j48928267436271_1_alg».proof.Proof.Gen.KernelIdeal.Launch
import proofs.«406331_j48928267436271_1_alg».proof.Proof.Gen.KernelIdeal.Skeleton
import proofs.«406331_j48928267436271_1_alg».proof.Proof.IRuns3
import proofs.«406331_j48928267436271_1_alg».proof.Proof.LibRunFold

noncomputable section

namespace Cert.KernelIdeal.Hand

open Cert.KernelIdeal Cert.KernelIdeal.Gen Cert.LibRunFold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xw3 (c : Dev nD) (t : Fin cfg3.N) : Vec F S1x2048 .i32 := iblk3 V c 0 t
abbrev xt3 (c : Dev nD) (t : Fin cfg3.N) : Vec F S2048x64 .f32 := iblk3 V c 1 t

theorem N3_val : cfg3.N = 19159 := N_3
theorem lt3 (t : Fin cfg3.N) : t.val < 19159 := lt_of_lt_of_eq t.isLt N3_val

theorem coordIn3 (t : Fin cfg3.N) : ((grid3.coords t) 1).val = t.val % 391 := by
  show t.val / grid3.stride 1 % 391 = _
  rw [show grid3.stride 1 = 1 from by decide, Nat.div_one]

theorem coordOut3 (t : Fin cfg3.N) : ((grid3.coords t) 0).val = t.val / 391 := by
  show t.val / grid3.stride 0 % 49 = _
  rw [show grid3.stride 0 = 391 from by decide]
  exact Nat.mod_eq_of_lt (by have := lt3 t; omega)

theorem index3_0 (t : Fin cfg3.N) : (cfg3.win 0).index t = ![0, t.val % 391] := by
  show cc3_transform_0 (grid3.coords t) = _
  unfold cc3_transform_0; dsimp only
  rw [coordIn3, toNat_small (t.val % 391) (by have := lt3 t; omega)]
  rfl
theorem index3_1 (t : Fin cfg3.N) : (cfg3.win 1).index t = ![t.val % 391, 0] := by
  show cc3_transform_1 (grid3.coords t) = _
  unfold cc3_transform_1; dsimp only
  rw [coordIn3, toNat_small (t.val % 391) (by have := lt3 t; omega)]
  rfl
theorem index3_2 (t : Fin cfg3.N) : (cfg3.win 2).index t = ![t.val / 391, 0] := by
  show cc3_transform_2 (grid3.coords t) = _
  unfold cc3_transform_2; dsimp only
  rw [coordOut3, toNat_small (t.val / 391) (by have := lt3 t; omega)]
  rfl

theorem flush3_2_iff (t : Fin cfg3.N) : (cfg3.win 2).flush t = true ↔ t.val % 391 = 390 := by
  unfold Pipeline.Window.flush
  rw [show (cfg3.win 2).isOut = true from rfl, Bool.true_and, Bool.or_eq_true, decide_eq_true_eq, decide_eq_true_eq]
  exact (run_end_iff (by decide) ⟨49, N_3⟩ _ index3_2 t).trans (by omega)

theorem hcondA3 (t : Fin cfg3.N) : condA3 (grid3.coords t) ↔ t.val % 391 = 0 := by
  unfold condA3; rw [coordIn3]; exact eq_word _ 0 (by omega) (by omega)

theorem hcondB3 (t : Fin cfg3.N) : condB3 (grid3.coords t) ↔ t.val % 391 = 390 := by
  unfold condB3 k3_cond2; dsimp only; rw [coordIn3]; exact eq_word _ 390 (by omega) (by omega)

abbrev ms3_0 (t : Fin cfg3.N) : Memref sig .tc .vmem S1x2048 .i32 := win3_0.stage (cfg3.slots t 0)
abbrev ms3_1 (t : Fin cfg3.N) : Memref sig .tc .vmem S2048x64 .f32 := win3_1.stage (cfg3.slots t 1)
abbrev ms3_2 (t : Fin cfg3.N) : Memref sig .tc .vmem S1024x64 .f32 := win3_2.stage (cfg3.slots t 2)
abbrev scM3 : Memref sig .tc .vmem S1024x64 .f32 := Memref.whole cc3_scratch0

/-- The accumulator after each point: the body's stored value over the zero vector where a run of 391 starts, over what the point before left elsewhere. -/
def acc3 (c : Dev nD) : (n : ℕ) → n < cfg3.N → Vec F S1024x64 .f32 :=
  fold 391 k3_pay1 fun n h => k3_pay2 (grid3.coords ⟨n, h⟩) (xw3 V c ⟨n, h⟩) (xt3 V c ⟨n, h⟩)

theorem acc3_first (c : Dev nD) (t : Fin cfg3.N) (h : t.val % 391 = 0) :
    acc3 V c t.val t.isLt = k3_pay2 (grid3.coords t) (xw3 V c t) (xt3 V c t) k3_pay1 := fold_first _ _ _ _ _ h

theorem acc3_next (c : Dev nD) (t : Fin cfg3.N) (h : ¬ t.val % 391 = 0) :
    acc3 V c t.val t.isLt = k3_pay2 (grid3.coords t) (xw3 V c t) (xt3 V c t)
      (acc3 V c (t.val - 1) (Nat.lt_of_le_of_lt (Nat.sub_le _ _) t.isLt)) := fold_next _ _ _ _ _ h

abbrev others3 (c : Dev nD) : sProp 𝕄 :=
  Pipeline.scopedRestBut (Ix := Unit) (Name := ℕ) (U := Pipeline.UD sig nD τ) (Lvl := ℕ) (Val := Elt F) spec3 c [cc3_scratch0]

theorem PhiA3_eq (c : Dev nD) :
    (Pipeline.ΦA spec3 c : sProp 𝕄)
      = opened c scM3 (others3 (F := F) c) := by
  unfold Pipeline.ΦA opened
  rw [Pipeline.scopedRest_split_of_list spec3 c [cc3_scratch0] (by decide) (by decide)]
  simp only [scM3, owns_whole]; rfl

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := carried c scM3 (Pipeline.ΦA spec3 c) (others3 (F := F) c) (acc3 V c) t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem leaves3_2 (c : Dev nD) (t : Fin cfg3.N) (d) :
    owns (c : Thread nD τ) (ms3_2 t) fullShare (if condB3 (grid3.coords t) then acc3 V c t.val t.isLt else (dat3 V c).before 2 t d)
      ⊢ (dat3 V c).leavesExact 2 t := by
  by_cases hB : condB3 (grid3.coords t)
  · rw [if_pos hB, show (dat3 V c).leavesExact 2 t = owns (c : Thread nD τ) (ms3_2 t) fullShare ((dat3 V c).after 2 t) from by
      unfold Dat.leavesExact
      rw [show cfg3.idle 2 (grid3.coords t) = false from by
        show (!(k3_cond2 (grid3.coords t) == 1#1)) = false
        rw [Bool.not_eq_false', beq_iff_eq]; exact hB], after3_2]
  · rw [if_neg hB, Dat.leavesExact_idle (dat3 V c) 2 t
      (by show (!(k3_cond2 (grid3.coords t) == 1#1)) = true
          rw [Bool.not_eq_true', beq_eq_false_iff_ne]; exact hB)
      (by rw [Bool.eq_false_iff]; exact fun hf => hB ((hcondB3 t).mpr ((flush3_2_iff t).mp hf)))]
    iintro H; iexists _; iexact H

/-- One step of the accumulator, whichever case the point is in. -/
theorem accStep3 (c : Dev nD) (t : Fin cfg3.N) (s : Vec F S1024x64 .f32)
    (hs : ∀ hz : t.val ≠ 0, s = acc3 V c (t.val - 1) (by have := t.isLt; omega)) :
    k3_pay2 (grid3.coords t) (xw3 V c t) (xt3 V c t) (if condA3 (grid3.coords t) then k3_pay1 else s) = acc3 V c t.val t.isLt := by
  by_cases h0 : t.val % 391 = 0
  · rw [if_pos ((hcondA3 t).mpr h0), acc3_first V c t h0]
  · rw [if_neg (fun h => h0 ((hcondA3 t).mp h)), acc3_next V c t h0, hs fun hz => h0 (by rw [hz])]

abbrev bodyAt3 (t : Fin cfg3.N) : Prog (TpuEff nD τ sig (Elt F) Λ₀ .tc) PUnit :=
  cc3__scatter_kernel (grid3.coords t) (ms3_0 t) (hstage3_0 ((cfg3.slots t 0).cast nbuf3_0)) (ms3_1 t) (hstage3_1 ((cfg3.slots t 1).cast nbuf3_1))
    (ms3_2 t) (hstage3_2 ((cfg3.slots t 2).cast nbuf3_2)) scM3 (Memref.isWhole_whole _)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem Phi3_castSucc (c : Dev nD) (t : Fin cfg3.N) :
    (dat3 V c).Φ t.castSucc = carried c scM3 (Pipeline.ΦA spec3 c) (others3 (F := F) c) (acc3 V c) t.val (Nat.le_of_lt t.isLt) := by
  dsimp only [dat3]; simp only [Fin.coe_castSucc]

theorem Phi3_succ (c : Dev nD) (t : Fin cfg3.N) :
    (dat3 V c).Φ t.succ = named c scM3 (others3 (F := F) c) (acc3 V c t.val t.isLt) := rfl

theorem leaves3_0 (c : Dev nD) (t : Fin cfg3.N) :
    (dat3 V c).leavesExact 0 t = owns (c : Thread nD τ) (ms3_0 t) fullShare (iblk3 V c 0 t) := by
  unfold Dat.leavesExact; rw [show cfg3.idle 0 (cfg3.grid.coords t) = false from rfl, after3_0]
theorem leaves3_1 (c : Dev nD) (t : Fin cfg3.N) :
    (dat3 V c).leavesExact 1 t = owns (c : Thread nD τ) (ms3_1 t) fullShare (iblk3 V c 1 t) := by
  unfold Dat.leavesExact; rw [show cfg3.idle 1 (cfg3.grid.coords t) = false from rfl, after3_1]

/-- The body at any point: the invariant hands it the accumulator at what the point before left (at anything where there is none) and takes it back at this point's value. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl, Phi3_succ, Phi3_castSucc, leaves3_0, leaves3_1]
  iintro ⟨HPhi, Ho, ⟨%d0, H0⟩, ⟨%d1, H1⟩, ⟨%d2, H2⟩⟩
  ihave HPhi' := (carried_named c scM3 _ _ (acc3 V c) (Entails.of_eq (PhiA3_eq c)) t.val (Nat.le_of_lt t.isLt)) $$ HPhi
  icases HPhi' with ⟨%s, %hs, ⟨HS, Hoth⟩, Hg⟩
  iapply (run3 c Set.univ _ _ _ _ _ _ _ _ _ (fun h => by have := (hcondA3 t).mp h.1; have := (hcondB3 t).mp h.2; omega)
    (xw3 V c t) (xt3 V c t) s _ _)
  isplitl [H0]; · iexact H0
  isplitl [H1]; · iexact H1
  isplitl [H2]; · iexact H2
  isplitl [HS]; · iexact HS
  rw [accStep3 V c t s hs]
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves3_2 V c t d2); iexact H2

theorem body_obligation3 (c : Dev nD) : BodyObligation (dat3 (F := F) V c) (defs₀ (F := F)) Variants.none () Set.univ := fun t => by
  rw [bigSep_W3, bigSep_W3]
  exact sound_body3 V c t

theorem hout3 (c : Dev nD) : (dat3 V c).Φ (Fin.last cfg3.N) ⊢ Pipeline.ΦA spec3 c :=
  (carried_forget c scM3 _ _ (acc3 V c) (Entails.of_eq (PhiA3_eq c)) (Fin.last cfg3.N).val (Nat.le_of_lt_succ (Fin.last cfg3.N).isLt)).trans
    (Entails.of_eq (PhiA3_eq c).symm)

end Cert.KernelIdeal.Hand

end
-- ==== Proof.IRun.lean ====
import proofs.«406331_j48928267436271_1_alg».proof.Proof.Gen.KernelIdeal.Launch
import proofs.«406331_j48928267436271_1_alg».proof.Proof.Gen.KernelIdeal.Skeleton
import proofs.«406331_j48928267436271_1_alg».proof.Proof.Gen.KernelIdeal.Regions
import proofs.«406331_j48928267436271_1_alg».proof.Proof.IData0
import proofs.«406331_j48928267436271_1_alg».proof.Proof.IData1
import proofs.«406331_j48928267436271_1_alg».proof.Proof.IData2
import proofs.«406331_j48928267436271_1_alg».proof.Proof.IData3
import Idealize.ShloMosaic.Lib.Pipeline.Regions
import Idealize.ShloMosaic.Lib.Pipeline.RegionsLoop
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev Wv0 : Dev nD → Valuation τ sig (Elt F) := fun c b => m (c, b)
abbrev Wv1 (c : Dev nD) : Valuation τ sig (Elt F) := StableHlo.after hostOps0 (Wv0 m c)
abbrev Wv2 (c : Dev nD) : Valuation τ sig (Elt F) := StableHlo.after hostOps0_1 (Wv1 m c)
abbrev Wv3 (c : Dev nD) : Valuation τ sig (Elt F) := StableHlo.after hostOps0_2 (Wv2 m c)
abbrev Wv4 (c : Dev nD) : Valuation τ sig (Elt F) := StableHlo.after hostOps0_3 (Wv3 m c)
abbrev Wv5 (c : Dev nD) : Valuation τ sig (Elt F) := StableHlo.after hostOps0_4 (Wv4 m c)
abbrev Wv6 (c : Dev nD) : Valuation τ sig (Elt F) := StableHlo.after hostOps0_5 (Wv5 m c)
abbrev Wv7 (c : Dev nD) : Valuation τ sig (Elt F) := StableHlo.after hostOps0_6 (Wv6 m c)
abbrev Wv8 (c : Dev nD) : Valuation τ sig (Elt F) := StableHlo.after hostOps0_7 (Wv7 m c)
abbrev Wv9 (c : Dev nD) : Valuation τ sig (Elt F) := StableHlo.after hostOps0_8 (Wv8 m c)
abbrev Wv10 (c : Dev nD) : Valuation τ sig (Elt F) := StableHlo.after hostOps0_9 (Wv9 m c)
def Wv11 (c : Dev nD) : Valuation τ sig (Elt F) :=
  Pipeline.withArrays spec0 c (Wv10 m c) fun w => (dat0 (fun c b => Wv10 m c b) c).arrAt w cfg0.N
theorem Wv11_arr (c : Dev nD) (w : Fin cfg0.W) :
    Wv11 m c (Proc.devRef .tc (Pipeline.arrRef spec0 w)) = (dat0 (fun c b => Wv10 m c b) c).arrAt w cfg0.N :=
  Pipeline.withArrays_arr spec0 launch0.win.arr_inj c _ _ w
theorem Wv11_of_ne (c : Dev nD) (b : Ref sig .tc) (hb : ∀ w, Pipeline.arrRef spec0 w ≠ b) :
    Wv11 m c (Proc.devRef .tc b) = Wv10 m c (Proc.devRef .tc b) :=
  Pipeline.withArrays_of_ne spec0 c _ _ b hb
def Wv12 (c : Dev nD) : Valuation τ sig (Elt F) :=
  Pipeline.withArrays spec1 c (Wv11 m c) fun w => (dat1 (fun c b => Wv11 m c b) c).arrAt w cfg1.N
theorem Wv12_arr (c : Dev nD) (w : Fin cfg1.W) :
    Wv12 m c (Proc.devRef .tc (Pipeline.arrRef spec1 w)) = (dat1 (fun c b => Wv11 m c b) c).arrAt w cfg1.N :=
  Pipeline.withArrays_arr spec1 launch1.win.arr_inj c _ _ w
theorem Wv12_of_ne (c : Dev nD) (b : Ref sig .tc) (hb : ∀ w, Pipeline.arrRef spec1 w ≠ b) :
    Wv12 m c (Proc.devRef .tc b) = Wv11 m c (Proc.devRef .tc b) :=
  Pipeline.withArrays_of_ne spec1 c _ _ b hb
abbrev Wv13 (c : Dev nD) : Valuation τ sig (Elt F) := StableHlo.after hostOps2 (Wv12 m c)
abbrev Wv14 (c : Dev nD) : Valuation τ sig (Elt F) := StableHlo.after hostOps2_1 (Wv13 m c)
abbrev Wv15 (c : Dev nD) : Valuation τ sig (Elt F) := StableHlo.after hostOps2_2 (Wv14 m c)
abbrev Wv16 (c : Dev nD) : Valuation τ sig (Elt F) := StableHlo.after hostOps2_3 (Wv15 m c)
def Wv17 (c : Dev nD) : Valuation τ sig (Elt F) :=
  Pipeline.withArrays spec2 c (Wv16 m c) fun w => (dat2 (fun c b => Wv16 m c b) c).arrAt w cfg2.N
theorem Wv17_arr (c : Dev nD) (w : Fin cfg2.W) :
    Wv17 m c (Proc.devRef .tc (Pipeline.arrRef spec2 w)) = (dat2 (fun c b => Wv16 m c b) c).arrAt w cfg2.N :=
  Pipeline.withArrays_arr spec2 launch2.win.arr_inj c _ _ w
theorem Wv17_of_ne (c : Dev nD) (b : Ref sig .tc) (hb : ∀ w, Pipeline.arrRef spec2 w ≠ b) :
    Wv17 m c (Proc.devRef .tc b) = Wv16 m c (Proc.devRef .tc b) :=
  Pipeline.withArrays_of_ne spec2 c _ _ b hb
def Wv18 (c : Dev nD) : Valuation τ sig (Elt F) :=
  Pipeline.withArrays spec3 c (Wv17 m c) fun w => (dat3 (fun c b => Wv17 m c b) c).arrAt w cfg3.N
theorem Wv18_arr (c : Dev nD) (w : Fin cfg3.W) :
    Wv18 m c (Proc.devRef .tc (Pipeline.arrRef spec3 w)) = (dat3 (fun c b => Wv17 m c b) c).arrAt w cfg3.N :=
  Pipeline.withArrays_arr spec3 launch3.win.arr_inj c _ _ w
theorem Wv18_of_ne (c : Dev nD) (b : Ref sig .tc) (hb : ∀ w, Pipeline.arrRef spec3 w ≠ b) :
    Wv18 m c (Proc.devRef .tc b) = Wv17 m c (Proc.devRef .tc b) :=
  Pipeline.withArrays_of_ne spec3 c _ _ b hb
abbrev Wv19 (c : Dev nD) : Valuation τ sig (Elt F) := StableHlo.after hostOps4 (Wv18 m c)

abbrev atRefs (W : Dev nD → Valuation τ sig (Elt F)) : (c : Dev nD) → (b : Ref sig .tc) → Buf (Elt F) ((c : Thread nD τ).loc b) := fun c b => W c b

abbrev adm : (p : Fin 4) → (pcfgs (F := F) p).Adm := fun p => (cfgs p).toPCfg_adm

def pdats : (p : Fin 4) → (c : Dev nD) → Dat τ (Elt F) Unit ℕ (Pipeline.UD sig nD τ) ℕ (Pipeline.pin (pcfgs (F := F)) adm p) c
  | ⟨0, _⟩ => fun c => dat0 (fun c b => Wv10 m c b) c
  | ⟨1, _⟩ => fun c => dat1 (fun c b => Wv11 m c b) c
  | ⟨2, _⟩ => fun c => dat2 (fun c b => Wv16 m c b) c
  | ⟨3, _⟩ => fun c => dat3 (fun c b => Wv17 m c b) c

abbrev 𝒱₀ : Variants := Variants.none
abbrev Lz : GSem nD τ sig → Finset Unit := fun _ => ∅
abbrev lvz : GSem nD τ sig → Unit → ℕ := fun _ _ => 0
abbrev Rb (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rb

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a region's data say whatever contents they start from, by cases on the region. -/
theorem pdats_plain (p : Fin 4) (c : Dev nD) : (∀ w, (pdats m p c).q w = fullShare) ∧ (∀ t, (pdats m p c).owed t = 0)
    ∧ (pdats m p c).recorded 0 = Set.univ ∧ (pdats m p c).Φ 0 = Pipeline.ΦA (cfgs p).spec c := by
  fin_cases p <;> exact ⟨fun _ => rfl, fun _ => rfl, rfl, rfl⟩

/-- A region as a segment between two valuations: its arrays leave the held buffers on entry and return on exit at their final contents. -/
def regOf (p : Fin 4) (L : Pipeline.LaunchFacts (nD := nD) (τ := τ) cfgs p) (Vi Vo : Dev nD → Valuation τ sig (Elt F))
    (hb : ∀ c, BodyObligation (pdats m p c) (defs₀ (F := F)) Variants.none () Set.univ)
    (hA : ∀ c w, (pdats m p c).A w = atRefs Vi c (Pipeline.arrRef (cfgs p).spec w))
    (hN : ∀ c, (pdats m p c).Φ (Fin.last _) ⊢ Pipeline.ΦA (cfgs p).spec c)
    (harr : ∀ c w, Vo c (Proc.devRef .tc (Pipeline.arrRef (cfgs p).spec w)) = (pdats m p c).arrAt w (cfgs p).N)
    (hne : ∀ c (b : Ref sig .tc), (∀ w, Pipeline.arrRef (cfgs p).spec w ≠ b) → Vo c (Proc.devRef .tc b) = Vi c (Proc.devRef .tc b)) :
    Pipeline.RegionSeg (pcfgs (F := F)) adm (pdats m) () defs₀ 𝒱₀ Lz lvz p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ Lz lvz p fun c => (pdats_plain m p c).2.1
  pre c := iprop(StableHlo.held (c : Thread nD τ) (Pipeline.ucRefs τ sig) (Vi c) ∗ Rb c)
  post c := iprop(StableHlo.held (c : Thread nD τ) (Pipeline.ucRefs τ sig) (Vo c) ∗ Rb c)
  X c := iprop(∃ r, prngReg c r)
  Y c := iprop(∃ r, prngReg c r)
  Z c := Pipeline.unscopedRest (cfgs p).spec c (atRefs Vi c)
  hentry c := by
    obtain ⟨hq, hz, hr, -⟩ := pdats_plain m p c
    have hsplit := Pipeline.arrays_of_unscopedBufs (p := p) (pcfgs (F := F)) adm (pdats m) L.win L.arr_whole c
      ((pdats m p c).share_full hq) (atRefs Vi c) (hA c)
    rw [Pipeline.unscopedBufs_held] at hsplit
    unfold Pipeline.Dat.owesAt Pipeline.owesWithin Pipeline.Dat.bound
    rw [Pipeline.ownSems0_none, hz, hr]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [(pdats_plain m p c).2.2.2]; unfold Pipeline.ΦA
    iintro ⟨Hp, -, Hr⟩
    isplitl [Hr]; · iexact Hr
    iexact Hp
  hout c := by
    rw [Pipeline.ownSems0_none]
    refine (hN c).trans ?_
    unfold Pipeline.ΦA
    iintro ⟨Hr, Hp⟩
    isplitl [Hp]; · iexact Hp
    isplitr; · iempintro
    iexact Hr
  hexit c := by
    obtain ⟨hq, hz, -⟩ := pdats_plain m p c
    have hjoin := Pipeline.unscopedBufs_of_arrays (p := p) (pcfgs (F := F)) adm (Ix := Unit) (Name := ℕ) (U := Pipeline.UD sig nD τ) (Lvl := ℕ)
      L.win L.arr_whole c (pdats m) ((pdats m p c).share_full hq)
      (atRefs Vi c) (atRefs Vo c) ((pdats m p c).arrAt · (cfgs p).N) (fun w => (harr c w).symm)
      (fun b hb => hne c b fun w e => hb (Finset.mem_image.mpr ⟨w, Finset.mem_univ _, e⟩))
    rw [Pipeline.unscopedBufs_held] at hjoin
    unfold Pipeline.Dat.owesAt Pipeline.owesWithin
    rw [hz]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := regOf m 0 launch0 (Wv10 m) (Wv11 m) (body_obligation0 _) (fun _ _ => rfl) (hout0 _) (Wv11_arr m) (Wv11_of_ne m)
def reg1 := regOf m 1 launch1 (Wv11 m) (Wv12 m) (body_obligation1 _) (fun _ _ => rfl) (hout1 _) (Wv12_arr m) (Wv12_of_ne m)
def reg2 := regOf m 2 launch2 (Wv16 m) (Wv17 m) (body_obligation2 _) (fun _ _ => rfl) (hout2 _) (Wv17_arr m) (Wv17_of_ne m)
def reg3 := regOf m 3 launch3 (Wv17 m) (Wv18 m) (body_obligation3 _) (fun _ _ => rfl) (hout3 _) (Wv18_arr m) (Wv18_of_ne m)

abbrev segs : List (Pipeline.Seg (pcfgs (F := F)) adm (pdats m) () defs₀ 𝒱₀ Lz lvz) :=
  [ .host (hseg hostOps0 hostOps0_sub hostOps0_fresh (Wv0 m)),
    .host (hseg hostOps0_1 hostOps0_1_sub hostOps0_1_fresh (Wv1 m)),
    .host (hseg hostOps0_2 hostOps0_2_sub hostOps0_2_fresh (Wv2 m)),
    .host (hseg hostOps0_3 hostOps0_3_sub hostOps0_3_fresh (Wv3 m)),
    .host (hseg hostOps0_4 hostOps0_4_sub hostOps0_4_fresh (Wv4 m)),
    .host (hseg hostOps0_5 hostOps0_5_sub hostOps0_5_fresh (Wv5 m)),
    .host (hseg hostOps0_6 hostOps0_6_sub hostOps0_6_fresh (Wv6 m)),
    .host (hseg hostOps0_7 hostOps0_7_sub hostOps0_7_fresh (Wv7 m)),
    .host (hseg hostOps0_8 hostOps0_8_sub hostOps0_8_fresh (Wv8 m)),
    .host (hseg hostOps0_9 hostOps0_9_sub hostOps0_9_fresh (Wv9 m)),
    .region (reg0 m),
    .region (reg1 m),
    .host (hseg hostOps2 hostOps2_sub hostOps2_fresh (Wv12 m)),
    .host (hseg hostOps2_1 hostOps2_1_sub hostOps2_1_fresh (Wv13 m)),
    .host (hseg hostOps2_2 hostOps2_2_sub hostOps2_2_fresh (Wv14 m)),
    .host (hseg hostOps2_3 hostOps2_3_sub hostOps2_3_fresh (Wv15 m)),
    .region (reg2 m),
    .region (reg3 m),
    .host (hseg hostOps4 hostOps4_sub hostOps4_fresh (Wv18 m)) ]

theorem main_run (c : Dev nD) : main (F := F) c = Pipeline.Seg.run (segs m) := (main_chain c).trans (by chain_rfl)

theorem run_all : θ_run defs (onTc (τ := τ) (main (F := F))) ⟨m, fun _ => 0, ρ⟩ (fun r => ∀ c : Dev nD,
      ∀ b ∈ Pipeline.ucRefs τ sig, r.2.mem (((c : Thread nD τ)).1, b) = Wv19 m c b) :=
  Pipeline.θ_run_regions_kit (pcfgs (F := F)) adm (pdats m) () cellOf_inj embL defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m c) ∗ Rb c))
    (Tₙ := fun c => iprop(StableHlo.held (c : Thread nD τ) (Pipeline.ucRefs τ sig) (Wv19 m c) ∗ ∃ r, prngReg c r))
    (hch := by
      repeat' first | exact fun _ => .rfl | apply And.intro
      intro c
      show iprop(StableHlo.held (c : Thread nD τ) (Pipeline.ucRefs τ sig) (Wv19 m c) ∗ Rb c) ⊢ _
      iintro ⟨Hh, Hp, HO⟩
      isplitl [Hh Hp]
      · isplitl [Hh]; · iexact Hh
        iexact Hp
      iexact HO)
    (hinit := by
      refine Pipeline.initEach Lz lvz fun c => ?_
      rw [show unscopedBufs c (fun b => m ((c : Thread nD τ).loc b)) = StableHlo.held (c : Thread nD τ) (Pipeline.ucRefs τ sig) (Wv0 m c)
        from Pipeline.unscopedBufs_held c (Wv0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv19 m c b)
    (hfin := fun c s' => by
      iintro ⟨⟨Hh, -⟩, HSI⟩
      unfold StableHlo.held
      imodintro
      iapply (pointsTo_read_all (Pipeline.ucRefs τ sig) (fun b => (((c : Thread nD τ)).1, b)) (Wv19 m c) s')
      isplitl [Hh] <;> iassumption)
    (hQ := fun s h c => h c)

abbrev args : List (Ref sig .tc) := [main_arg0, main_arg1, main_arg2, main_arg3, main_arg4, main_arg5, main_arg6]

/-- No host stretch writes an argument and no region has one among its arrays, so each is as launched at every boundary. -/
theorem Wv_arg (c : Dev nD) : ∀ b ∈ args, [Wv5 m c, Wv7 m c, Wv8 m c, Wv12 m c, Wv14 m c, Wv18 m c, Wv19 m c].Forall
    fun W => W (Proc.devRef .tc b) = m ((c : Thread nD τ).loc b) := by
  have h : ∀ b ∈ args, b ∉ hostOps4_W ∧ (∀ w, Pipeline.arrRef spec3 w ≠ b) ∧ (∀ w, Pipeline.arrRef spec2 w ≠ b)
      ∧ b ∉ hostOps2_3_W ∧ b ∉ hostOps2_2_W ∧ b ∉ hostOps2_1_W ∧ b ∉ hostOps2_W
      ∧ (∀ w, Pipeline.arrRef spec1 w ≠ b) ∧ (∀ w, Pipeline.arrRef spec0 w ≠ b)
      ∧ b ∉ hostOps0_9_W ∧ b ∉ hostOps0_8_W ∧ b ∉ hostOps0_7_W ∧ b ∉ hostOps0_6_W ∧ b ∉ hostOps0_5_W ∧ b ∉ hostOps0_4_W
      ∧ b ∉ hostOps0_3_W ∧ b ∉ hostOps0_2_W ∧ b ∉ hostOps0_1_W ∧ b ∉ hostOps0_W := by decide
  intro b hb
  obtain ⟨h19, h18, h17, h16, h15, h14, h13, h12, h11, h10, h9, h8, h7, h6, h5, h4, h3, h2, h1⟩ := h b hb
  have e5 := (V5_of m c b h5).trans <| (V4_of m c b h4).trans <| (V3_of m c b h3).trans <| (V2_of m c b h2).trans <| V1_of m c b h1
  have e7 := (V7_of m c b h7).trans <| (V6_of m c b h6).trans e5
  have e8 := (V8_of m c b h8).trans e7
  have e12 := (Wv12_of_ne m c b h12).trans <| (Wv11_of_ne m c b h11).trans <| (V10_of m c b h10).trans <| (V9_of m c b h9).trans e8
  have e14 := (StableHlo.after_of_writes_sub hostOps2_1 _ hostOps2_1_writes h14).trans <|
    (StableHlo.after_of_writes_sub hostOps2 _ hostOps2_writes h13).trans e12
  have e18 := (Wv18_of_ne m c b h18).trans <| (Wv17_of_ne m c b h17).trans <|
    (StableHlo.after_of_writes_sub hostOps2_3 _ hostOps2_3_writes h16).trans <|
    (StableHlo.after_of_writes_sub hostOps2_2 _ hostOps2_2_writes h15).trans e14
  exact ⟨e5, e7, e8, e12, e14, e18, (StableHlo.after_of_writes_sub hostOps4 _ hostOps4_writes h19).trans e18⟩

/-- What the frame claims ask of a final memory, from `run_all`'s conclusion. -/
theorem args_kept (c : Dev nD) (s : MemSt nD τ sig (Elt F))
    (h : ∀ b ∈ Pipeline.ucRefs τ sig, s.mem (((c : Thread nD τ)).1, b) = Wv19 m c b) :
    args.Forall fun b => s.mem ((c : Thread nD τ).loc b) = m ((c : Thread nD τ).loc b) :=
  List.forall_iff_forall_mem.mpr fun b hb =>
    (h _ (mem_uc b ((by decide : ∀ b ∈ args, ¬ (Proc.devRef .tc b : DevRef τ sig).isScoped) b hb))).trans (Wv_arg m c b hb).2.2.2.2.2.2

end Cert.KernelIdeal.Hand

end
-- ==== Proof.Frames.lean ====
import proofs.«406331_j48928267436271_1_alg».proof.Defs
import proofs.«406331_j48928267436271_1_alg».proof.Proof.BRun
import proofs.«406331_j48928267436271_1_alg».proof.Proof.IRun
import proofs.«406331_j48928267436271_1_alg».proof.Proof.Gen.ReferenceIdeal.Run
import proofs.«406331_j48928267436271_1_alg».proof.Proof.Gen.Pre_finite_inputs

noncomputable section

namespace Cert.Proof.Frames

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run (Cert.Kernel.defs (F := Bits)) _ _).mono (fun r h c => Cert.Kernel.Hand.args_kept m c r.2 (h c)) (Cert.Kernel.Hand.run_all (F := Bits) m ρ)

theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun r h c => Cert.KernelIdeal.Hand.args_kept m c r.2 (h c)) (Cert.KernelIdeal.Hand.run_all (F := Ideal) m ρ)

theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Value.run (F := Ideal) m ρ)

end Cert.Proof.Frames

end
-- ==== Proof.Spec.lean ====
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

def hit (w : BitVec 32) (k : ℕ) : EReal := if w = BitVec.ofNat 32 k then 1 else 0

def pick {E N C : ℕ} (idx : (⟨2, ![E, 1]⟩ : Shape).Idx → BitVec 32) (tbl : (⟨2, ![N, C]⟩ : Shape).Idx → EReal) :
    (⟨2, ![E, C]⟩ : Shape).Idx → EReal :=
  fun y => ∑ n : Fin N, hit (idx (ix2 (⟨(y 0).val, idx2_lt0 y⟩ : Fin E) (0 : Fin 1))) n.val
    * tbl (ix2 n (⟨(y 1).val, idx2_lt1 y⟩ : Fin C))

theorem pick_apply {E N C : ℕ} (idx : (⟨2, ![E, 1]⟩ : Shape).Idx → BitVec 32) (tbl : (⟨2, ![N, C]⟩ : Shape).Idx → EReal)
    (e : Fin E) (c : Fin C) :
    pick idx tbl (ix2 e c) = ∑ n : Fin N, hit (idx (ix2 e (0 : Fin 1))) n.val * tbl (ix2 n c) := rfl

def bins {E C : ℕ} (N : ℕ) (idx : (⟨2, ![1, E]⟩ : Shape).Idx → BitVec 32) (msg : (⟨2, ![E, C]⟩ : Shape).Idx → EReal) :
    (⟨2, ![N, C]⟩ : Shape).Idx → EReal :=
  fun y => ∑ e : Fin E, hit (idx (ix2 (0 : Fin 1) e)) (y 0).val * msg (ix2 e (⟨(y 1).val, idx2_lt1 y⟩ : Fin C))

theorem bins_apply {E C : ℕ} (N : ℕ) (idx : (⟨2, ![1, E]⟩ : Shape).Idx → BitVec 32) (msg : (⟨2, ![E, C]⟩ : Shape).Idx → EReal)
    (r : Fin N) (c : Fin C) :
    bins N idx msg (ix2 r c) = ∑ e : Fin E, hit (idx (ix2 (0 : Fin 1) e)) r.val * msg (ix2 e c) := rfl

def agg (h : (⟨2, ![50000, 64]⟩ : Shape).Idx → EReal) (src dst : (⟨1, ![800000]⟩ : Shape).Idx → BitVec 32) :
    (⟨2, ![50000, 64]⟩ : Shape).Idx → EReal :=
  fun y => ∑ e : Fin 800000, hit (dst (ix1 e)) (y 0).val
    * h (ix2 (⟨min (src (ix1 e)).toNat 49999, by omega⟩ : Fin 50000) (⟨(y 1).val, idx2_lt1 y⟩ : Fin 64))

theorem agg_apply (h : (⟨2, ![50000, 64]⟩ : Shape).Idx → EReal) (src dst : (⟨1, ![800000]⟩ : Shape).Idx → BitVec 32)
    (r : Fin 50000) (c : Fin 64) :
    agg h src dst (ix2 r c) = ∑ e : Fin 800000, hit (dst (ix1 e)) r.val
      * h (ix2 (⟨min (src (ix1 e)).toNat 49999, by omega⟩ : Fin 50000) c) := rfl

end Cert.Spec

end
-- ==== Proof.LibIndexMaps.lean ====
import Idealize.ShloMosaic.PureOps.Ideal
import Idealize.ShloMosaic.Lib.ValueIdx

noncomputable section

namespace Cert.Gcn.IndexMaps

open Idealize.ShloMosaic Idealize.ShloMosaic.ValueIdx

theorem fin2_cases (a : Fin 2) : a = 0 ∨ a = 1 := by
  rcases a with ⟨v, hv⟩
  rcases (by omega : v = 0 ∨ v = 1) with rfl | rfl
  · exact Or.inl rfl
  · exact Or.inr rfl

theorem mem_kept {s : Shape} (axes : List (Fin s.rank)) (a : Fin s.rank) : a ∈ s.kept axes ↔ a ∉ axes := by
  simp [Shape.kept, List.mem_filter, List.mem_finRange]

theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

theorem coord_of_val0 {e f : ℕ} (j : (⟨2, ![e, f]⟩ : Shape).Idx) (X : Fin 2) (hX : X.val = 0) : (j X).val = (j 0).val := by
  have : X = 0 := Fin.ext hX
  subst this; rfl

theorem coord_of_val1 {e f : ℕ} (j : (⟨2, ![e, f]⟩ : Shape).Idx) (X : Fin 2) (hX : X.val = 1) : (j X).val = (j 1).val := by
  have : X = 1 := Fin.ext hX
  subst this; rfl

theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

end Cert.Gcn.IndexMaps

end
-- ==== Proof.LibGatherClamp.lean ====
import Idealize.ShloMosaic.PureOps.Ideal
import Idealize.ShloMosaic.Lib.ValueIdx
import proofs.«406331_j48928267436271_1_alg».proof.Proof.LibIndexMaps

noncomputable section

namespace Cert.Gcn.GatherClamp

open Idealize.ShloMosaic Idealize.ShloMosaic.ValueIdx Cert.Gcn.IndexMaps

theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c) = x (ix2 ⟨min (idx (ix2 p (0 : Fin 1))).toInt.toNat (n - 1), by omega⟩ c) := by
  unfold Host.gather
  congr 1
  funext a
  apply Fin.ext
  have hb : ∀ a : Fin 2, a ∉ d.operandBatchingDims := by intro a; rw [hob]; exact List.not_mem_nil
  show d.start (ix2 p c) idx a + d.batchCoord (ix2 p c) a + d.offCoord (ix2 p c) a
    = (ix2 (⟨min (idx (ix2 p (0 : Fin 1))).toInt.toNat (n - 1), by omega⟩ : Fin n) c a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + ((ix2 p c) _).val = c.val
    have hall : ∀ x ∈ d.offsetDims, x.val = 1 := by rw [hod]; simp
    rw [coord_of_val1 (ix2 p c) _ (hall _ (List.getElem_mem _))]
    show 0 + 0 + c.val = c.val
    omega

end Cert.Gcn.GatherClamp

end
-- ==== Proof.LibScatterHost.lean ====
import proofs.«406331_j48928267436271_1_alg».proof.Proof.LibIndexMaps
import Idealize.ShloMosaic.PureOps.Contract

noncomputable section

namespace Cert.LibScatterHost

open Idealize.ShloMosaic Idealize.ShloMosaic.ValueIdx

theorem scatterAdd2_apply {φ : FTy} {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : FVec Ideal ⟨2, ![n, f]⟩ φ) (idx : IVec ⟨2, ![e, 1]⟩ w) (upd : FVec Ideal ⟨2, ![e, f]⟩ φ)
    (r : Fin n) (c : Fin f) :
    Host.scatterAdd (F := Ideal) d x idx upd (ix2 r c)
      = x (ix2 r c) + ∑ p : Fin e, if (idx (ix2 p (0 : Fin 1))).toInt = ((r.val : ℕ) : Int) then upd (ix2 p c) else 0 :=
  Cert.Gcn.IndexMaps.hostScatterAdd2_apply d huw hiw hsd hivd x idx upd r c

end Cert.LibScatterHost

end
-- ==== Proof.LibWordArith.lean ====
import Idealize.ShloMosaic.PureOps.Ideal
import Idealize.ShloMosaic.Lib.StableHlo.Predicate

noncomputable section

namespace Cert.Gcn.WordArith

open Idealize.ShloMosaic

def normIdx (a n : BitVec 32) : BitVec 32 := Scalar.select (IntOp.cmpi .slt a 0#32) (IntOp.addi a n) a

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem slt_zero_small {a : BitVec 32} (ha : a.toNat < 2 ^ 31) : IntOp.cmpi .slt a 0#32 = 0#1 := by
  rw [slt_small ha (by decide)]
  exact if_neg (by simp)

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

end Cert.Gcn.WordArith

end
-- ==== Proof.LibLayoutReads.lean ====
import Idealize.ShloMosaic.Lib.ValueLayout

namespace Cert.Gcn.LayoutReads

open Idealize.ShloMosaic Idealize.ShloMosaic.ValueIdx

variable {α : Type}

theorem shapeCast_n_ab_apply {a b n : Nat} (x : (⟨1, ![n]⟩ : Shape).Idx → α)
    (h : (⟨1, ![n]⟩ : Shape).ShapeCasts ⟨2, ![a, b]⟩) (i : Fin a) (j : Fin b) (k : Fin n)
    (hk : k.val = i.val * b + j.val) :
    shapeCast ⟨2, ![a, b]⟩ x h (ix2 i j) = x (ix1 k) :=
  shapeCast_apply x h _ _ (by
    rw [Shape.rowMajor_val_two, Shape.rowMajor_val_one]
    show k.val = i.val * b + j.val
    exact hk)

theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_n_ab_apply x h i u i (by have := u.isLt; omega)

theorem broadcastInDim_a_a1_apply {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x _ _ (fun ax => by
    match ax with
    | ⟨0, _⟩ =>
      show i.val = if a = 1 then 0 else i.val
      split
      · have := i.isLt; omega
      · rfl)

section Concat3
variable {n1 n2 n3 n : Nat} (x1 : (⟨1, ![n1]⟩ : Shape).Idx → α) (x2 : (⟨1, ![n2]⟩ : Shape).Idx → α)
  (x3 : (⟨1, ![n3]⟩ : Shape).Idx → α)
  (h : Shape.Concatenates [(⟨1, ![n1]⟩ : Shape), ⟨1, ![n2]⟩, ⟨1, ![n3]⟩] ⟨1, ![n]⟩ 0)

end Concat3

section Stack2
variable {m1 m2 m f : Nat} (x1 : (⟨2, ![m1, f]⟩ : Shape).Idx → α) (x2 : (⟨2, ![m2, f]⟩ : Shape).Idx → α)
  (h : Shape.Concatenates [(⟨2, ![m1, f]⟩ : Shape), ⟨2, ![m2, f]⟩] ⟨2, ![m, f]⟩ 0)

end Stack2

end Cert.Gcn.LayoutReads
-- ==== Proof.LibTileSums.lean ====
import Idealize.ShloMosaic.PureOps.Ideal
import Mathlib.Logic.Equiv.Fin.Basic
import Mathlib.Data.Fintype.BigOperators
import Mathlib.Algebra.BigOperators.Fin

namespace Cert.LibTileSums

open scoped BigOperators

theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

end Cert.LibTileSums
-- ==== Proof.RefAgg.lean ====
import proofs.«406331_j48928267436271_1_alg».proof.ReferenceIdeal
import proofs.«406331_j48928267436271_1_alg».proof.Proof.Spec
import proofs.«406331_j48928267436271_1_alg».proof.Proof.LibGatherClamp
import proofs.«406331_j48928267436271_1_alg».proof.Proof.LibScatterHost
import proofs.«406331_j48928267436271_1_alg».proof.Proof.LibWordArith
import proofs.«406331_j48928267436271_1_alg».proof.Proof.LibLayoutReads
import proofs.«406331_j48928267436271_1_alg».proof.Proof.LibTileSums
import Idealize.ShloMosaic.Lib.IdealHost

noncomputable section

namespace Cert.ReferenceIdeal.RefAgg

open Idealize.ShloMosaic Idealize.ShloMosaic.ValueIdx
open scoped BigOperators

theorem toInt_eq_natCast_iff (w : BitVec 32) {k : ℕ} (hk : k < 2 ^ 31) :
    w.toInt = (k : Int) ↔ w = BitVec.ofNat 32 k := by
  constructor
  · intro h
    refine (Cert.LibTileSums.eq_ofNat_iff w (by omega)).2 ?_
    have hlt := w.isLt
    rw [BitVec.toInt_eq_toNat_cond] at h
    by_cases hc : 2 * w.toNat < 2 ^ 32
    · rw [if_pos hc] at h
      omega
    · rw [if_neg hc] at h
      omega
  · intro h
    rw [h]
    exact Cert.Gcn.WordArith.toInt_ofNat_small k hk

theorem ite_toInt_eq_hit_mul (w : BitVec 32) {k : ℕ} (hk : k < 2 ^ 31) (x : EReal) :
    (if w.toInt = (k : Int) then x else 0) = Cert.Spec.hit w k * x := by
  unfold Cert.Spec.hit
  by_cases hw : w = BitVec.ofNat 32 k
  · rw [if_pos ((toInt_eq_natCast_iff w hk).2 hw), if_pos hw, one_mul]
  · rw [if_neg (fun h => hw ((toInt_eq_natCast_iff w hk).1 h)), if_neg hw, zero_mul]

theorem wrapped_toNat (w : BitVec 32) (hw : w.toNat < 50000) :
    (Scalar.select (IntOp.cmpi .slt w 0#32) (IntOp.addi w 50000#32) w).toInt.toNat = w.toNat := by
  have hs : w.toNat < 2 ^ 31 := by omega
  rw [Cert.Gcn.WordArith.select_slt_zero_small 50000#32 hs, Cert.Gcn.WordArith.toInt_of_small hs]
  exact Int.toNat_natCast _

section
variable [Cert.ReferenceIdeal.Facts]
open Cert.ReferenceIdeal Cert.ReferenceIdeal.Facts₀

def aggRef (h : FVec Ideal S50000x64 .f32) (src dst : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

theorem zeros_apply (r : Fin 50000) (c : Fin 64) :
    broadcastInDim S50000x64 ![] bcast_S_S50000x64 (constant (F := Ideal) S_ .f32 0x00000000#32) (ix2 r c) = 0 := by
  rw [broadcastInDim_scalar_apply]
  exact Ideal.ofBits_zero_f32

theorem gathered_apply (h : FVec Ideal S50000x64 .f32) (src : IVec S800000 32)
    (hsrc : ∀ e : Fin 800000, (src (ix1 e)).toNat < 50000) (e : Fin 800000) (c : Fin 64) :
    Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)) (ix2 e c)
      = h (ix2 (⟨min (src (ix1 e)).toNat 49999, by omega⟩ : Fin 50000) c) := by
  refine (Cert.Gcn.GatherClamp.gather2_clamp_apply (by decide) gather_S50000x64_S800000x1_S800000x64_1_0_n_n_0_1_164
    rfl rfl rfl rfl rfl h _ e c).trans ?_
  refine congrArg (fun k => h (ix2 k c)) (Fin.ext ?_)
  have hw : (broadcastInDim S800000x1 ![0] bcast_S800000_S800000x1_0
      (select (cmpi .slt src (broadcastInDim S800000 ![] bcast_S_S800000 (constantI S_ 32 0#32)))
        (addi src (broadcastInDim S800000 ![] bcast_S_S800000 (constantI S_ 32 50000#32))) src)
      (ix2 e (0 : Fin 1))).toInt.toNat = (src (ix1 e)).toNat := by
    rw [Cert.Gcn.LayoutReads.broadcastInDim_a_a1_apply]
    exact wrapped_toNat (src (ix1 e)) (hsrc e)
  exact congrArg (fun t => min t 49999) hw

theorem aggRef_eq (h : FVec Ideal S50000x64 .f32) (src dst : IVec S800000 32)
    (hsrc : ∀ e : Fin 800000, (src (ix1 e)).toNat < 50000) : aggRef h src dst = Cert.Spec.agg h src dst := by
  funext y
  obtain ⟨r, c, rfl⟩ : ∃ (r : Fin 50000) (c : Fin 64), y = ix2 r c := ⟨y 0, y 1, eq_ix2 y⟩
  rw [Cert.Spec.agg_apply]
  refine (Cert.LibScatterHost.scatterAdd2_apply scatter_S50000x64_S800000x1_S800000x64_1_0_0_1 rfl rfl rfl rfl
    _ _ _ r c).trans ?_
  rw [zeros_apply r c, zero_add]
  refine Finset.sum_congr rfl fun e _ => ?_
  rw [Cert.Gcn.LayoutReads.broadcastInDim_a_a1_apply bcast_S800000_S800000x1_0 dst e 0]
  refine (ite_toInt_eq_hit_mul _ (by have := r.isLt; omega) _).trans ?_
  exact congrArg (fun t => Cert.Spec.hit (dst (ix1 e)) r.val * t) (gathered_apply h src hsrc e c)

end

end Cert.ReferenceIdeal.RefAgg

end
-- ==== Proof.LibPadSum.lean ====
import Mathlib.Algebra.BigOperators.Fin
import Mathlib.Algebra.BigOperators.Group.Finset.Basic

namespace Cert.LibPadSum

open scoped BigOperators

theorem sum_of_tail_zero {M : Type*} [AddCommMonoid M] {n N : ℕ} (h : n ≤ N) (f : Fin N → M)
    (hz : ∀ p : Fin N, n ≤ p.val → f p = 0) :
    ∑ p : Fin N, f p = ∑ p : Fin n, f (Fin.castLE h p) := by

  obtain ⟨k, rfl⟩ := Nat.exists_eq_add_of_le h
  rw [Fin.sum_univ_add]

  have htail : ∑ i : Fin k, f (Fin.natAdd n i) = 0 :=
    Finset.sum_eq_zero fun i _ => hz (Fin.natAdd n i) (show n ≤ n + i.val from Nat.le_add_right n i.val)
  rw [htail, add_zero]

  exact Finset.sum_congr rfl fun p _ => congrArg f (Fin.ext rfl)

end Cert.LibPadSum
-- ==== Proof.PureAgg.lean ====
import proofs.«406331_j48928267436271_1_alg».proof.Proof.Spec
import proofs.«406331_j48928267436271_1_alg».proof.Proof.LibTileSums
import proofs.«406331_j48928267436271_1_alg».proof.Proof.LibPadSum

noncomputable section

namespace Cert.Spec

open Idealize.ShloMosaic Idealize.ShloMosaic.ValueIdx
open scoped BigOperators

theorem hit_ofNat_of_ne {a k : ℕ} (ha : a < 2 ^ 32) (hk : k < 2 ^ 32) (hne : a ≠ k) :
    hit (BitVec.ofNat 32 a) k = 0 := by
  unfold hit
  rw [if_neg]
  intro h
  apply hne

  have hv := (Cert.LibTileSums.eq_ofNat_iff (BitVec.ofNat 32 a) hk).1 h
  rwa [BitVec.toNat_ofNat, Nat.mod_eq_of_lt ha] at hv

theorem pick_eq {E N C : ℕ} (hN : N ≤ 2 ^ 32)
    (idx : (⟨2, ![E, 1]⟩ : Shape).Idx → BitVec 32) (tbl : (⟨2, ![N, C]⟩ : Shape).Idx → EReal)
    (e : Fin E) (c : Fin C) :
    pick idx tbl (ix2 e c)
      = if hw : (idx (ix2 e (0 : Fin 1))).toNat < N
          then tbl (ix2 ⟨(idx (ix2 e (0 : Fin 1))).toNat, hw⟩ c) else 0 := by
  rw [pick_apply]
  exact Cert.LibTileSums.onehot_sum hN (idx (ix2 e (0 : Fin 1))) (fun n => tbl (ix2 n c))

theorem bins_eq_of_tail {E C : ℕ} (N : ℕ) {n : ℕ} (hn : n ≤ E)
    (idx : (⟨2, ![1, E]⟩ : Shape).Idx → BitVec 32) (msg : (⟨2, ![E, C]⟩ : Shape).Idx → EReal)
    (r : Fin N) (c : Fin C)
    (htail : ∀ e : Fin E, n ≤ e.val → hit (idx (ix2 (0 : Fin 1) e)) r.val = 0) :
    bins N idx msg (ix2 r c)
      = ∑ e : Fin n, hit (idx (ix2 (0 : Fin 1) (Fin.castLE hn e))) r.val * msg (ix2 (Fin.castLE hn e) c) := by
  rw [bins_apply]

  exact Cert.LibPadSum.sum_of_tail_zero hn
    (fun e : Fin E => hit (idx (ix2 (0 : Fin 1) e)) r.val * msg (ix2 e c))
    (fun e he => by rw [htail e he, zero_mul])

theorem kernel_agg_eq (h : (⟨2, ![50000, 64]⟩ : Shape).Idx → EReal)
    (src dst : (⟨1, ![800000]⟩ : Shape).Idx → BitVec 32)
    (hpad : (⟨2, ![50176, 64]⟩ : Shape).Idx → EReal)
    (srccol : (⟨2, ![800768, 1]⟩ : Shape).Idx → BitVec 32)
    (dstrow : (⟨2, ![1, 800768]⟩ : Shape).Idx → BitVec 32)
    (hhpad : ∀ (n : Fin 50176) (c : Fin 64), hpad (ix2 n c)
      = if hn : n.val < 50000 then h (ix2 (⟨n.val, hn⟩ : Fin 50000) c) else 0)
    (hsrc : ∀ e : Fin 800768, srccol (ix2 e (0 : Fin 1))
      = if he : e.val < 800000 then src (ix1 (⟨e.val, he⟩ : Fin 800000)) else 0#32)
    (hdst : ∀ e : Fin 800768, dstrow (ix2 (0 : Fin 1) e)
      = if he : e.val < 800000 then dst (ix1 (⟨e.val, he⟩ : Fin 800000)) else 50176#32)
    (hrange : ∀ e : Fin 800000, (src (ix1 e)).toNat < 50000)
    (r : Fin 50000) (c : Fin 64) :
    bins 50176 dstrow (pick srccol hpad) (ix2 (⟨r.val, by omega⟩ : Fin 50176) c) = agg h src dst (ix2 r c) := by
  have hr : r.val < 50000 := r.isLt
  have hle : (800000 : ℕ) ≤ 800768 := by omega

  have htail : ∀ e : Fin 800768, 800000 ≤ e.val → hit (dstrow (ix2 (0 : Fin 1) e)) r.val = 0 := by
    intro e he
    rw [hdst e, dif_neg (Nat.not_lt.2 he)]
    exact hit_ofNat_of_ne (by omega) (by omega) (by omega)
  refine (bins_eq_of_tail 50176 hle dstrow (pick srccol hpad) (⟨r.val, by omega⟩ : Fin 50176) c htail).trans ?_
  rw [agg_apply]
  refine Finset.sum_congr rfl fun e _ => ?_

  have hev : (Fin.castLE hle e).val < 800000 := e.isLt
  have hd : dstrow (ix2 (0 : Fin 1) (Fin.castLE hle e)) = dst (ix1 e) := by
    rw [hdst (Fin.castLE hle e), dif_pos hev]
    exact congrArg (fun k : Fin 800000 => dst (ix1 k)) (Fin.ext rfl)
  have hs : srccol (ix2 (Fin.castLE hle e) (0 : Fin 1)) = src (ix1 e) := by
    rw [hsrc (Fin.castLE hle e), dif_pos hev]
    exact congrArg (fun k : Fin 800000 => src (ix1 k)) (Fin.ext rfl)

  have hw : (src (ix1 e)).toNat < 50000 := hrange e
  have hw' : (src (ix1 e)).toNat < 50176 := by omega
  have hp : pick srccol hpad (ix2 (Fin.castLE hle e) c)
      = h (ix2 (⟨min (src (ix1 e)).toNat 49999, by omega⟩ : Fin 50000) c) := by
    rw [pick_eq (by omega) srccol hpad (Fin.castLE hle e) c, hs, dif_pos hw',
      hhpad ⟨(src (ix1 e)).toNat, hw'⟩ c, dif_pos hw]

    have hmin : min (src (ix1 e)).toNat 49999 = (src (ix1 e)).toNat := by omega
    exact congrArg (fun n : Fin 50000 => h (ix2 n c)) (Fin.ext hmin.symm)
  rw [hd, hp]

end Cert.Spec

end
-- ==== Proof.Bridge.lean ====
import proofs.«406331_j48928267436271_1_alg».proof.Proof.Gen.ReferenceIdeal.Run
import proofs.«406331_j48928267436271_1_alg».proof.KernelIdeal
import proofs.«406331_j48928267436271_1_alg».proof.Proof.RefAgg
import proofs.«406331_j48928267436271_1_alg».proof.Proof.Spec
import proofs.«406331_j48928267436271_1_alg».proof.Proof.PureAgg
import proofs.«406331_j48928267436271_1_alg».proof.Proof.LibLayoutReads
import Idealize.ShloMosaic.Lib.KernelVsHost

noncomputable section

namespace Cert.Bridge

open Idealize.ShloMosaic Idealize.ShloMosaic.ValueIdx

section Reference
variable [Cert.ReferenceIdeal.Facts]
open Cert.ReferenceIdeal Cert.ReferenceIdeal.Facts₀ Idealize.ShloMosaic.TcCoe Idealize.SL.Sem

def outOf (G : FVec Ideal S50000x64 .f32 → FVec Ideal S50000x64 .f32) (x : FVec Ideal S50000x64 .f32)
    (W1 : FVec Ideal S64x128 .f32) (b1 : FVec Ideal S128 .f32) (W2 : FVec Ideal S128x64 .f32)
    (b2 : FVec Ideal S64 .f32) (src dst : IVec S800000 32) : FVec Ideal S50000x64 .f32 :=
  addf (mulf (G (Host.dotGeneral dot_S50000x128_S128x64_S50000x64_1_0_0_1_n_n none (mulf (maximumf (addf (mulf (Host.dotGeneral dot_S50000x64_S64x128_S50000x128_1_0_0_1_n_n none (G (mulf x (broadcastInDim S50000x64 ![0, 1] bcast_S50000x1_S50000x64_0_1 (broadcastInDim S50000x1 ![0] bcast_S50000_S50000x1_0 (Host.powf (maximumf (broadcastInDim S50000 ![] bcast_S_S50000 (id (constant (F := Ideal) S_ .f32 0x3F800000#32))) (Host.scatterAdd scatter_S50000_S800000x1_S800000_n_0_0_1 (broadcastInDim S50000 ![] bcast_S_S50000 (constant (F := Ideal) S_ .f32 0x00000000#32)) (broadcastInDim S800000x1 ![0] bcast_S800000_S800000x1_0 src) (broadcastInDim S800000 ![] bcast_S_S800000 (constant (F := Ideal) S_ .f32 0x3F800000#32)))) (broadcastInDim S50000 ![] bcast_S_S50000 (constant (F := Ideal) S_ .f32 0xBF000000#32))))))) W1) (broadcastInDim S50000x128 ![0, 1] bcast_S50000x1_S50000x128_0_1 (broadcastInDim S50000x1 ![0] bcast_S50000_S50000x1_0 (Host.powf (maximumf (broadcastInDim S50000 ![] bcast_S_S50000 (id (constant (F := Ideal) S_ .f32 0x3F800000#32))) (Host.scatterAdd scatter_S50000_S800000x1_S800000_n_0_0_1 (broadcastInDim S50000 ![] bcast_S_S50000 (constant (F := Ideal) S_ .f32 0x00000000#32)) (broadcastInDim S800000x1 ![0] bcast_S800000_S800000x1_0 dst) (broadcastInDim S800000 ![] bcast_S_S800000 (constant (F := Ideal) S_ .f32 0x3F800000#32)))) (broadcastInDim S50000 ![] bcast_S_S50000 (constant (F := Ideal) S_ .f32 0xBF000000#32)))))) (broadcastInDim S50000x128 ![0, 1] bcast_S1x128_S50000x128_0_1 (broadcastInDim S1x128 ![1] bcast_S128_S1x128_1 b1))) (broadcastInDim S50000x128 ![] bcast_S_S50000x128 (constant (F := Ideal) S_ .f32 0x00000000#32))) (broadcastInDim S50000x128 ![0, 1] bcast_S50000x1_S50000x128_0_1 (broadcastInDim S50000x1 ![0] bcast_S50000_S50000x1_0 (Host.powf (maximumf (broadcastInDim S50000 ![] bcast_S_S50000 (id (constant (F := Ideal) S_ .f32 0x3F800000#32))) (Host.scatterAdd scatter_S50000_S800000x1_S800000_n_0_0_1 (broadcastInDim S50000 ![] bcast_S_S50000 (constant (F := Ideal) S_ .f32 0x00000000#32)) (broadcastInDim S800000x1 ![0] bcast_S800000_S800000x1_0 src) (broadcastInDim S800000 ![] bcast_S_S800000 (constant (F := Ideal) S_ .f32 0x3F800000#32)))) (broadcastInDim S50000 ![] bcast_S_S50000 (constant (F := Ideal) S_ .f32 0xBF000000#32)))))) W2)) (broadcastInDim S50000x64 ![0, 1] bcast_S50000x1_S50000x64_0_1 (broadcastInDim S50000x1 ![0] bcast_S50000_S50000x1_0 (Host.powf (maximumf (broadcastInDim S50000 ![] bcast_S_S50000 (id (constant (F := Ideal) S_ .f32 0x3F800000#32))) (Host.scatterAdd scatter_S50000_S800000x1_S800000_n_0_0_1 (broadcastInDim S50000 ![] bcast_S_S50000 (constant (F := Ideal) S_ .f32 0x00000000#32)) (broadcastInDim S800000x1 ![0] bcast_S800000_S800000x1_0 dst) (broadcastInDim S800000 ![] bcast_S_S800000 (constant (F := Ideal) S_ .f32 0x3F800000#32)))) (broadcastInDim S50000 ![] bcast_S_S50000 (constant (F := Ideal) S_ .f32 0xBF000000#32)))))) (broadcastInDim S50000x64 ![0, 1] bcast_S1x64_S50000x64_0_1 (broadcastInDim S1x64 ![1] bcast_S64_S1x64_1 b2))

theorem ref_out (m' : (ℓ : Loc nD τ sig) → Buf (Elt Ideal) ℓ) (c : Dev nD) :
    Cert.ReferenceIdeal.Value.res_main_v53 (F := Ideal) m' c
      = outOf (fun h => Cert.ReferenceIdeal.RefAgg.aggRef h (m' ((c.tc : Thread nD τ).loc main_arg5))
          (m' ((c.tc : Thread nD τ).loc main_arg6)))
        (m' ((c.tc : Thread nD τ).loc main_arg0))
        (m' ((c.tc : Thread nD τ).loc main_arg1))
        (m' ((c.tc : Thread nD τ).loc main_arg2))
        (m' ((c.tc : Thread nD τ).loc main_arg3))
        (m' ((c.tc : Thread nD τ).loc main_arg4))
        (m' ((c.tc : Thread nD τ).loc main_arg5))
        (m' ((c.tc : Thread nD τ).loc main_arg6)) := by
  unfold Cert.ReferenceIdeal.Value.res_main_v53 outOf Cert.ReferenceIdeal.RefAgg.aggRef
  rfl

theorem ref_out_spec (m' : (ℓ : Loc nD τ sig) → Buf (Elt Ideal) ℓ) (c : Dev nD)
    (hsrc : ∀ e : Fin 800000,
      ((m' ((c.tc : Thread nD τ).loc main_arg5) : IVec S800000 32) (ix1 e)).toNat < 50000) :
    Cert.ReferenceIdeal.Value.res_main_v53 (F := Ideal) m' c
      = outOf (fun h => Cert.Spec.agg h (m' ((c.tc : Thread nD τ).loc main_arg5))
          (m' ((c.tc : Thread nD τ).loc main_arg6)))
        (m' ((c.tc : Thread nD τ).loc main_arg0))
        (m' ((c.tc : Thread nD τ).loc main_arg1))
        (m' ((c.tc : Thread nD τ).loc main_arg2))
        (m' ((c.tc : Thread nD τ).loc main_arg3))
        (m' ((c.tc : Thread nD τ).loc main_arg4))
        (m' ((c.tc : Thread nD τ).loc main_arg5))
        (m' ((c.tc : Thread nD τ).loc main_arg6)) :=
  (ref_out m' c).trans (congrArg (outOf · _ _ _ _ _ _ _) (funext fun h => Cert.ReferenceIdeal.RefAgg.aggRef_eq h _ _ hsrc))

end Reference

theorem leadingRows_apply {α : Type} {N n f : ℕ} (x : (⟨2, ![N, f]⟩ : Shape).Idx → α)
    (h : (⟨2, ![N, f]⟩ : Shape).Slices ![0, 0] ⟨2, ![n, f]⟩) (r : Fin n) (c : Fin f) (r' : Fin N)
    (hr : r'.val = r.val) :
    extractStridedSlice ⟨2, ![n, f]⟩ ![0, 0] x h (ix2 r c) = x (ix2 r' c) :=
  extractStridedSlice_apply ![0, 0] x h (ix2 r c) (ix2 r' c) (fun a => by
    match a with
    | ⟨0, _⟩ => show r'.val = 0 + r.val; omega
    | ⟨1, _⟩ => show c.val = 0 + c.val; omega)

section Kernel
variable [Cert.KernelIdeal.Facts]
open Cert.KernelIdeal Cert.KernelIdeal.Facts₀

def srcCol (src : IVec S800000 32) : IVec S800768x1 32 :=
  shapeCast S800768x1
    (pad S800768 ![0] ![768] ![0] src (id (constantI S_ 32 0#32)) pads_S800000_S800768_07680 h_S_)
    shapeCasts_S800768_S800768x1

def dstRow (dst : IVec S800000 32) : IVec S1x800768 32 :=
  shapeCast S1x800768
    (pad S800768 ![0] ![768] ![0] dst (id (constantI S_ 32 50176#32)) pads_S800000_S800768_07680 h_S_)
    shapeCasts_S800768_S1x800768

def padRows (h : FVec Ideal S50000x64 .f32) : FVec Ideal S50176x64 .f32 :=
  pad S50176x64 ![0, 0] ![176, 0] ![0, 0] h (sitofp (F := Ideal) .f32 (constantI S_ 32 0#32))
    pads_S50000x64_S50176x64_01760_000 h_S_

def aggK (h : FVec Ideal S50000x64 .f32) (src dst : IVec S800000 32) : FVec Ideal S50000x64 .f32 :=
  extractStridedSlice S50000x64 ![0, 0]
    (Cert.Spec.bins 50176 (dstRow dst) (Cert.Spec.pick (srcCol src) (padRows h))) slices_S50176x64_S50000x64_0_0

theorem pad1_apply (x : IVec S800000 32) (v : IVec S_ 32) (e : Fin 800768) :
    pad S800768 ![0] ![768] ![0] x v pads_S800000_S800768_07680 h_S_ (ix1 e)
      = if he : e.val < 800000 then x (ix1 (⟨e.val, he⟩ : Fin 800000)) else v ix0 := by
  by_cases he : e.val < 800000
  · rw [dif_pos he]
    exact pad_apply_of_inside _ _ _ x v _ _ (ix1 e) (ix1 (⟨e.val, he⟩ : Fin 800000)) (fun a => by
      match a with
      | ⟨0, _⟩ => show e.val = 0 + e.val * (0 + 1); omega)
  · rw [dif_neg he]
    refine (pad_apply_of_not_inside _ _ _ x v _ _ (ix1 e) (0 : Fin 1) ?_).trans (congrArg v (eq_ix0 _))
    show ¬(0 ≤ e.val ∧ (e.val - 0) % (0 + 1) = 0 ∧ (e.val - 0) / (0 + 1) < 800000)
    omega

theorem srcCol_apply (src : IVec S800000 32) (e : Fin 800768) :
    srcCol src (ix2 e (0 : Fin 1))
      = if he : e.val < 800000 then src (ix1 (⟨e.val, he⟩ : Fin 800000)) else 0#32 := by
  unfold srcCol
  rw [Cert.Gcn.LayoutReads.shapeCast_a_a1_apply]
  exact pad1_apply src _ e

theorem dstRow_apply (dst : IVec S800000 32) (e : Fin 800768) :
    dstRow dst (ix2 (0 : Fin 1) e)
      = if he : e.val < 800000 then dst (ix1 (⟨e.val, he⟩ : Fin 800000)) else 50176#32 := by
  unfold dstRow
  rw [Cert.Gcn.LayoutReads.shapeCast_n_ab_apply _ _ (0 : Fin 1) e e (by show e.val = 0 * 800768 + e.val; omega)]
  exact pad1_apply dst _ e

theorem padRows_apply (h : FVec Ideal S50000x64 .f32) (n : Fin 50176) (c : Fin 64) :
    padRows h (ix2 n c) = if hn : n.val < 50000 then h (ix2 (⟨n.val, hn⟩ : Fin 50000) c) else 0 := by
  unfold padRows
  by_cases hn : n.val < 50000
  · rw [dif_pos hn]
    exact pad_apply_of_inside _ _ _ h _ _ _ (ix2 n c) (ix2 (⟨n.val, hn⟩ : Fin 50000) c) (fun a => by
      match a with
      | ⟨0, _⟩ => show n.val = 0 + n.val * (0 + 1); omega
      | ⟨1, _⟩ => show c.val = 0 + c.val * (0 + 1); omega)
  · rw [dif_neg hn]
    refine (pad_apply_of_not_inside _ _ _ h _ _ _ (ix2 n c) (0 : Fin 2) ?_).trans sitofp_zero
    show ¬(0 ≤ n.val ∧ (n.val - 0) % (0 + 1) = 0 ∧ (n.val - 0) / (0 + 1) < 50000)
    omega

theorem aggK_eq (h : FVec Ideal S50000x64 .f32) (src dst : IVec S800000 32)
    (hsrc : ∀ e : Fin 800000, (src (ix1 e)).toNat < 50000) : aggK h src dst = Cert.Spec.agg h src dst := by
  funext y
  obtain ⟨r, c, rfl⟩ : ∃ (r : Fin 50000) (c : Fin 64), y = ix2 r c := ⟨y 0, y 1, eq_ix2 y⟩
  unfold aggK
  refine (leadingRows_apply _ slices_S50176x64_S50000x64_0_0 r c (⟨r.val, by omega⟩ : Fin 50176) rfl).trans ?_
  exact Cert.Spec.kernel_agg_eq h src dst (padRows h) (srcCol src) (dstRow dst) (padRows_apply h)
    (srcCol_apply src) (dstRow_apply dst) hsrc r c

end Kernel

end Cert.Bridge

end
-- ==== Proof.PayIdeal.lean ====
import proofs.«406331_j48928267436271_1_alg».proof.Proof.Gen.KernelIdeal.Skeleton
import proofs.«406331_j48928267436271_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

theorem word_pos (b k : ℕ) :
    IntOp.addi (Scalar.muli (BitVec.ofNat 32 b) 1024#32) (BitVec.ofNat 32 k) = BitVec.ofNat 32 (1024 * b + k) := by
  show BitVec.ofNat 32 b * BitVec.ofNat 32 1024 + BitVec.ofNat 32 k = _
  rw [Nat.mul_comm 1024 b, BitVec.ofNat_add, BitVec.ofNat_mul]

theorem indicator_word (w v : BitVec 32) :
    FloatOps.sitofp (F := Ideal) .f32 ((IntOp.cmpi .eq w v).setWidth 32) = if w = v then (1 : EReal) else 0 := by
  show (((((BitVec.ofBool (w == v)).setWidth 32).toInt : ℝ)) : EReal) = _
  by_cases h : w = v
  · rw [beq_iff_eq.mpr h, if_pos h, show ((BitVec.ofBool true).setWidth 32).toInt = 1 from by decide]; simp
  · rw [beq_eq_false_iff_ne.mpr h, if_neg h, show ((BitVec.ofBool false).setWidth 32).toInt = 0 from by decide]; simp

variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section Plain
variable {m n q : ℕ} (D : DotDims ⟨2, ![m, n]⟩ ⟨2, ![n, q]⟩ ⟨2, ![m, q]⟩)

theorem coord_congr {s : Shape} (j : s.Idx) (x y : ℕ) (hx : x < s.rank) (hy : y < s.rank) (h : x = y) :
    (j ⟨x, hx⟩).val = (j ⟨y, hy⟩).val := by subst h; rfl

theorem plain_lhs_0 (hlb : D.lhsBatch = []) (hln : D.lhsNonContracting = [0])
    (j : (⟨2, ![m, q]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

theorem plain_rhs_1 (hlb : D.lhsBatch = []) (hln : D.lhsNonContracting = [0]) (hrb : D.rhsBatch = [])
    (hrn : D.rhsNonContracting = [1])
    (j : (⟨2, ![m, q]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

end Plain

section PlainProduct
variable {m n q : ℕ} {φ₁ φ₂ : FTy} (D : DotDims ⟨2, ![m, n]⟩ ⟨2, ![n, q]⟩ ⟨2, ![m, q]⟩)

theorem plain_contr_rank (hlc : D.lhsContracting = [1]) : D.contr.rank = 1 := by
  rw [D.rank_contr, hlc]; rfl

theorem plain_contr_size (hlc : D.lhsContracting = [1]) :
    D.contr.size ⟨0, by rw [plain_contr_rank D hlc]; exact Nat.one_pos⟩ = n := by
  have h0 : 0 < D.lhsContracting.length := by rw [hlc]; exact Nat.one_pos
  rw [D.size_contr 0 h0]
  have : D.lhsContracting[0] = (1 : Fin 2) := by simp [hlc]
  rw [this]; rfl

theorem matmul_zero_plain_apply (hlb : D.lhsBatch = []) (hln : D.lhsNonContracting = [0])
    (hlc : D.lhsContracting = [1]) (hrb : D.rhsBatch = []) (hrn : D.rhsNonContracting = [1])
    (hrc : D.rhsContracting = [0]) (prec : Option ContractPrecision)
    (A : FVec Ideal ⟨2, ![m, n]⟩ φ₁) (B : FVec Ideal ⟨2, ![n, q]⟩ φ₂) (r : Fin m) (c : Fin q) :
    FloatOps.matmul D prec A B (constant ⟨2, ![m, q]⟩ .f32 0x00000000#32) (ix2 r c)
      = ∑ k : Fin n, A (ix2 r k) * B (ix2 k c) := by
  have hr := plain_contr_rank D hlc
  have hs := plain_contr_size D hlc
  rw [Ideal.matmul_constant_zero_apply, ← Equiv.sum_comp (contrEquiv1 D n hr hs).symm]
  refine Finset.sum_congr rfl fun k _ => ?_
  have hk := contrEquiv1_symm_val D n hr hs k
  have el : D.lhsIdx (ix2 r c) ((contrEquiv1 D n hr hs).symm k) = ix2 r k := funext fun a => Fin.ext (by
    match a with
    | ⟨0, _⟩ => exact plain_lhs_0 D hlb hln _ _
    | ⟨1, _⟩ => exact (D.lhsIdx_val_of_single hlc _ _).trans hk)
  have er : D.rhsIdx (ix2 r c) ((contrEquiv1 D n hr hs).symm k) = ix2 k c := funext fun a => Fin.ext (by
    match a with
    | ⟨0, _⟩ => exact (D.rhsIdx_val_of_single hrc _ _).trans hk
    | ⟨1, _⟩ => exact plain_rhs_1 D hlb hln hrb hrn _ _)
  rw [el, er]

end PlainProduct

theorem indicator_word_symm (w v : BitVec 32) :
    FloatOps.sitofp (F := Ideal) .f32 ((IntOp.cmpi .eq v w).setWidth 32) = if w = v then (1 : EReal) else 0 := by
  rw [indicator_word]; exact if_congr eq_comm rfl rfl

theorem zero_tile {s : Shape} (h : s.ShapeCasts s) (y : s.Idx) :
    shapeCast s (broadcast s (Scalar.ofBits (F := Ideal) .f32 0x00000000#32)) h y = 0 := by
  rw [shapeCast_self]
  exact Ideal.ofBits_zero_f32

section Tiles
variable {E N C : ℕ}

theorem pick_tile (D : DotDims ⟨2, ![E, N]⟩ ⟨2, ![N, C]⟩ ⟨2, ![E, C]⟩)
    (hlb : D.lhsBatch = []) (hln : D.lhsNonContracting = [0]) (hlc : D.lhsContracting = [1])
    (hrb : D.rhsBatch = []) (hrn : D.rhsNonContracting = [1]) (hrc : D.rhsContracting = [0])
    (b : ℕ) (x0 : IVec ⟨2, ![E, 1]⟩ 32) (x1 : FVec Ideal ⟨2, ![N, C]⟩ .f32) (s : FVec Ideal ⟨2, ![E, C]⟩ .f32)
    (h0 : (⟨2, ![E, 1]⟩ : Shape).ShapeCasts ⟨2, ![E, 1]⟩) (hio : (⟨2, ![E, N]⟩ : Shape).Iotas .tc 32 [1])
    (hbc : (⟨2, ![E, 1]⟩ : Shape).Broadcasts ⟨2, ![E, N]⟩) (hw : 1 < 32) (hf : FTy.bits .bf16 < FTy.bits .f32)
    (h1 : (⟨2, ![N, C]⟩ : Shape).ShapeCasts ⟨2, ![N, C]⟩) (h2 : (⟨2, ![E, C]⟩ : Shape).ShapeCasts ⟨2, ![E, C]⟩)
    (p : Fin E) (c : Fin C) :
    shapeCast ⟨2, ![E, C]⟩ (addf s (matmul D none
        (truncf .bf16 (sitofp .f32 (extui 32 (cmpi .eq
          (broadcastTo ⟨2, ![E, N]⟩ (shapeCast ⟨2, ![E, 1]⟩ x0 h0) hbc)
          (addi (broadcast ⟨2, ![E, N]⟩ (Scalar.muli (BitVec.ofNat 32 b) 1024#32)) (iota .tc ⟨2, ![E, N]⟩ 32 [1] hio))) hw)) hf)
        (truncf .bf16 (shapeCast ⟨2, ![N, C]⟩ x1 h1) hf)
        (constant ⟨2, ![E, C]⟩ .f32 0x00000000#32))) h2 (ix2 p c)
      = s (ix2 p c) + ∑ k : Fin N,
          (if x0 (ix2 p (0 : Fin 1)) = BitVec.ofNat 32 (1024 * b + k.val) then (1 : EReal) else 0) * x1 (ix2 k c) := by
  rw [shapeCast_self]
  show s (ix2 p c) + FloatOps.matmul D none _ _ (constant ⟨2, ![E, C]⟩ .f32 0x00000000#32) (ix2 p c) = _
  rw [matmul_zero_plain_apply D hlb hln hlc hrb hrn hrc]
  refine congrArg (s (ix2 p c) + ·) (Finset.sum_congr rfl fun k _ => ?_)
  show FloatOps.sitofp (F := Ideal) .f32 ((IntOp.cmpi .eq
        (broadcastTo ⟨2, ![E, N]⟩ (shapeCast ⟨2, ![E, 1]⟩ x0 h0) hbc (ix2 p k))
        (IntOp.addi (Scalar.muli (BitVec.ofNat 32 b) 1024#32) (iota .tc ⟨2, ![E, N]⟩ 32 [1] hio (ix2 p k)))).setWidth 32)
      * shapeCast ⟨2, ![N, C]⟩ x1 h1 (ix2 k c) = _
  rw [indicator_word, broadcastTo_a1_ab_apply, shapeCast_self, shapeCast_self, iota_single_apply, word_pos]
  rfl

theorem drop_tile (D : DotDims ⟨2, ![N, E]⟩ ⟨2, ![E, C]⟩ ⟨2, ![N, C]⟩)
    (hlb : D.lhsBatch = []) (hln : D.lhsNonContracting = [0]) (hlc : D.lhsContracting = [1])
    (hrb : D.rhsBatch = []) (hrn : D.rhsNonContracting = [1]) (hrc : D.rhsContracting = [0])
    (b : ℕ) (x0 : IVec ⟨2, ![1, E]⟩ 32) (x1 : FVec Ideal ⟨2, ![E, C]⟩ .f32) (s : FVec Ideal ⟨2, ![N, C]⟩ .f32)
    (h0 : (⟨2, ![1, E]⟩ : Shape).ShapeCasts ⟨2, ![1, E]⟩) (hio : (⟨2, ![N, E]⟩ : Shape).Iotas .tc 32 [0])
    (hbc : (⟨2, ![1, E]⟩ : Shape).Broadcasts ⟨2, ![N, E]⟩) (hw : 1 < 32) (hf : FTy.bits .bf16 < FTy.bits .f32)
    (h1 : (⟨2, ![E, C]⟩ : Shape).ShapeCasts ⟨2, ![E, C]⟩) (h2 : (⟨2, ![N, C]⟩ : Shape).ShapeCasts ⟨2, ![N, C]⟩)
    (r : Fin N) (c : Fin C) :
    shapeCast ⟨2, ![N, C]⟩ (addf s (matmul D none
        (truncf .bf16 (sitofp .f32 (extui 32 (cmpi .eq
          (addi (broadcast ⟨2, ![N, E]⟩ (Scalar.muli (BitVec.ofNat 32 b) 1024#32)) (iota .tc ⟨2, ![N, E]⟩ 32 [0] hio))
          (broadcastTo ⟨2, ![N, E]⟩ (shapeCast ⟨2, ![1, E]⟩ x0 h0) hbc)) hw)) hf)
        (truncf .bf16 (shapeCast ⟨2, ![E, C]⟩ x1 h1) hf)
        (constant ⟨2, ![N, C]⟩ .f32 0x00000000#32))) h2 (ix2 r c)
      = s (ix2 r c) + ∑ k : Fin E,
          (if x0 (ix2 (0 : Fin 1) k) = BitVec.ofNat 32 (1024 * b + r.val) then (1 : EReal) else 0) * x1 (ix2 k c) := by
  rw [shapeCast_self]
  show s (ix2 r c) + FloatOps.matmul D none _ _ (constant ⟨2, ![N, C]⟩ .f32 0x00000000#32) (ix2 r c) = _
  rw [matmul_zero_plain_apply D hlb hln hlc hrb hrn hrc]
  refine congrArg (s (ix2 r c) + ·) (Finset.sum_congr rfl fun k _ => ?_)
  show FloatOps.sitofp (F := Ideal) .f32 ((IntOp.cmpi .eq
        (IntOp.addi (Scalar.muli (BitVec.ofNat 32 b) 1024#32) (iota .tc ⟨2, ![N, E]⟩ 32 [0] hio (ix2 r k)))
        (broadcastTo ⟨2, ![N, E]⟩ (shapeCast ⟨2, ![1, E]⟩ x0 h0) hbc (ix2 r k))).setWidth 32)
      * shapeCast ⟨2, ![E, C]⟩ x1 h1 (ix2 k c) = _
  rw [indicator_word_symm, broadcastTo_1b_ab_apply, shapeCast_self, shapeCast_self, iota_single_apply, word_pos]
  rfl

end Tiles

section Payloads
variable [Cert.KernelIdeal.Facts]

theorem k0_pay1_apply (y : S2048x64.Idx) : k0_pay1 (F := Ideal) y = 0 :=
  zero_tile _ y

theorem k0_pay2_apply (i : grid0.Coords) (x0 : Vec Ideal S2048x1 .i32) (x1 : Vec Ideal S1024x64 .f32)
    (s : Vec Ideal S2048x64 .f32) (p : Fin 2048) (c : Fin 64) :
    k0_pay2 i x0 x1 s (ix2 p c) = s (ix2 p c) + ∑ k : Fin 1024,
      Cert.Spec.hit (x0 (ix2 p (0 : Fin 1))) (1024 * (i 1).val + k.val) * x1 (ix2 k c) :=
  pick_tile dot_S2048x1024_S1024x64_S2048x64_1_0_0_1_n_n rfl rfl rfl rfl rfl rfl (i 1).val x0 x1 s _ _ _ _ _ _ _ p c

theorem k1_pay1_apply (y : S1024x64.Idx) : k1_pay1 (F := Ideal) y = 0 :=
  zero_tile _ y

theorem k1_pay2_apply (i : grid1.Coords) (x0 : Vec Ideal S1x2048 .i32) (x1 : Vec Ideal S2048x64 .f32)
    (s : Vec Ideal S1024x64 .f32) (r : Fin 1024) (c : Fin 64) :
    k1_pay2 i x0 x1 s (ix2 r c) = s (ix2 r c) + ∑ k : Fin 2048,
      Cert.Spec.hit (x0 (ix2 (0 : Fin 1) k)) (1024 * (i 0).val + r.val) * x1 (ix2 k c) :=
  drop_tile dot_S1024x2048_S2048x64_S1024x64_1_0_0_1_n_n rfl rfl rfl rfl rfl rfl (i 0).val x0 x1 s _ _ _ _ _ _ _ r c

theorem k2_pay1_apply (y : S2048x64.Idx) : k2_pay1 (F := Ideal) y = 0 :=
  zero_tile _ y

theorem k2_pay2_apply (i : grid2.Coords) (x0 : Vec Ideal S2048x1 .i32) (x1 : Vec Ideal S1024x64 .f32)
    (s : Vec Ideal S2048x64 .f32) (p : Fin 2048) (c : Fin 64) :
    k2_pay2 i x0 x1 s (ix2 p c) = s (ix2 p c) + ∑ k : Fin 1024,
      Cert.Spec.hit (x0 (ix2 p (0 : Fin 1))) (1024 * (i 1).val + k.val) * x1 (ix2 k c) :=
  pick_tile dot_S2048x1024_S1024x64_S2048x64_1_0_0_1_n_n rfl rfl rfl rfl rfl rfl (i 1).val x0 x1 s _ _ _ _ _ _ _ p c

theorem k3_pay1_apply (y : S1024x64.Idx) : k3_pay1 (F := Ideal) y = 0 :=
  zero_tile _ y

theorem k3_pay2_apply (i : grid3.Coords) (x0 : Vec Ideal S1x2048 .i32) (x1 : Vec Ideal S2048x64 .f32)
    (s : Vec Ideal S1024x64 .f32) (r : Fin 1024) (c : Fin 64) :
    k3_pay2 i x0 x1 s (ix2 r c) = s (ix2 r c) + ∑ k : Fin 2048,
      Cert.Spec.hit (x0 (ix2 (0 : Fin 1) k)) (1024 * (i 0).val + r.val) * x1 (ix2 k c) :=
  drop_tile dot_S1024x2048_S2048x64_S1024x64_1_0_0_1_n_n rfl rfl rfl rfl rfl rfl (i 0).val x0 x1 s _ _ _ _ _ _ _ r c

end Payloads

end Cert.KernelIdeal.Pay

end
-- ==== Proof.LibPickRun.lean ====
import proofs.«406331_j48928267436271_1_alg».proof.Proof.Spec
import proofs.«406331_j48928267436271_1_alg».proof.Proof.LibTileSums
import Idealize.ShloMosaic.Lib.ValueIdx

noncomputable section

namespace Cert.PickRun

open Idealize.ShloMosaic Idealize.ShloMosaic.ValueIdx Cert.Spec
open scoped BigOperators

def wordAt {E : ℕ} (W : (⟨2, ![E, 1]⟩ : Shape).Idx → BitVec 32) (n : ℕ) : BitVec 32 :=
  if h : n < E then W (ix2 ⟨n, h⟩ (0 : Fin 1)) else 0

theorem wordAt_of_lt {E : ℕ} (W : (⟨2, ![E, 1]⟩ : Shape).Idx → BitVec 32) (n : ℕ) (h : n < E) :
    wordAt W n = W (ix2 ⟨n, h⟩ (0 : Fin 1)) := dif_pos h

def rowAt {N C : ℕ} (T : (⟨2, ![N, C]⟩ : Shape).Idx → EReal) (n : ℕ) (c : Fin C) : EReal :=
  if h : n < N then T (ix2 ⟨n, h⟩ c) else 0

theorem rowAt_of_lt {N C : ℕ} (T : (⟨2, ![N, C]⟩ : Shape).Idx → EReal) (n : ℕ) (c : Fin C) (h : n < N) :
    rowAt T n c = T (ix2 ⟨n, h⟩ c) := dif_pos h

def tileSum {N C : ℕ} (w : BitVec 32) (T : (⟨2, ![N, C]⟩ : Shape).Idx → EReal) (c : Fin C) (j : ℕ) : EReal :=
  ∑ k : Fin 1024, hit w (1024 * j + k.val) * rowAt T (1024 * j + k.val) c

theorem term_congr {N C : ℕ} (w : BitVec 32) (T : (⟨2, ![N, C]⟩ : Shape).Idx → EReal) (c : Fin C) (a b : ℕ)
    (h : a = b) (ha : a < N) (hb : b < N) :
    hit w a * T (ix2 ⟨a, ha⟩ c) = hit w b * T (ix2 ⟨b, hb⟩ c) := by
  subst h; rfl

theorem tiles_total {C : ℕ} (w : BitVec 32) (T : (⟨2, ![50176, C]⟩ : Shape).Idx → EReal) (c : Fin C) :
    ∑ j : Fin 49, tileSum w T c j.val = ∑ n : Fin 50176, hit w n.val * T (ix2 n c) := by
  rw [← Cert.LibTileSums.sum_tiles (A := 49) (B := 1024) (n := 50176) (by norm_num)
    (fun n => hit w n.val * T (ix2 n c))]
  refine Finset.sum_congr rfl fun j _ => Finset.sum_congr rfl fun k _ => ?_
  have hj := j.isLt
  have hk := k.isLt
  have hlt : 1024 * j.val + k.val < 50176 := by omega
  rw [rowAt_of_lt T _ c hlt]
  exact term_congr w T c (1024 * j.val + k.val) (j.val * 1024 + k.val) (by omega) hlt (Cert.LibTileSums.tile_lt (by norm_num) j k)

theorem pick_of_tiles {E C : ℕ} (W : (⟨2, ![E, 1]⟩ : Shape).Idx → BitVec 32)
    (T : (⟨2, ![50176, C]⟩ : Shape).Idx → EReal) (e : Fin E) (c : Fin C) :
    ∑ j : Fin 49, tileSum (W (ix2 e (0 : Fin 1))) T c j.val = pick W T (ix2 e c) := by
  rw [pick_apply, ← tiles_total]

theorem eq_ix2_of_val {n0 n1 : ℕ} (x : (⟨2, ![n0, n1]⟩ : Shape).Idx) (a : Fin n0) (b : Fin n1)
    (h0 : (x 0).val = a.val) (h1 : (x 1).val = b.val) : x = ix2 a b := by
  funext d; apply Fin.ext
  match d with
  | ⟨0, _⟩ => exact h0
  | ⟨1, _⟩ => exact h1

end Cert.PickRun

end
-- ==== Proof.IVal0.lean ====
import proofs.«406331_j48928267436271_1_alg».proof.Proof.IData0
import proofs.«406331_j48928267436271_1_alg».proof.Proof.PayIdeal
import proofs.«406331_j48928267436271_1_alg».proof.Proof.Spec
import proofs.«406331_j48928267436271_1_alg».proof.Proof.LibTileSums
import proofs.«406331_j48928267436271_1_alg».proof.Proof.LibPickRun
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators
open Cert.PickRun (eq_ix2_of_val)

variable (V : (c : Dev nD) → (b : Ref sig .tc) → Buf (Elt Ideal) ((c : Thread nD τ).loc b))

abbrev words0 (c : Dev nD) : S800768x1.Idx → BitVec 32 := V c main_v15

abbrev table0 (c : Dev nD) : S50176x64.Idx → EReal := V c main_v20

theorem row0_lt (t : Fin cfg0.N) (p : Fin 2048) : 2048 * (t.val / 49) + p.val < 800768 := by
  have := lt0 t; have := p.isLt; omega

theorem tile0_lt (t : Fin cfg0.N) (k : Fin 1024) : 1024 * (t.val % 49) + k.val < 50176 := by
  have := k.isLt; have := Nat.mod_lt t.val (by decide : 0 < 49); omega

theorem xw0_apply (c : Dev nD) (t : Fin cfg0.N) (p : Fin 2048) :
    xw0 V c t (ix2 p (0 : Fin 1)) = words0 V c (ix2 ⟨2048 * (t.val / 49) + p.val, row0_lt t p⟩ (0 : Fin 1)) := by
  have hi := index0_0 t
  have h0 : win0_0.index t 0 = t.val / 49 := congrFun hi 0
  have h1 : win0_0.index t 1 = 0 := congrFun hi 1
  unfold xw0 iblk0
  rw [View.read_apply]
  exact congrArg (V c main_v15) (eq_ix2_of_val _ _ _
    (by show win0_0.index t 0 * 2048 + 1 * p.val = 2048 * (t.val / 49) + p.val; rw [h0]; omega)
    (by show win0_0.index t 1 * 1 + 1 * 0 = 0; rw [h1]))

theorem xt0_apply (c : Dev nD) (t : Fin cfg0.N) (k : Fin 1024) (col : Fin 64) :
    xt0 V c t (ix2 k col) = table0 V c (ix2 ⟨1024 * (t.val % 49) + k.val, tile0_lt t k⟩ col) := by
  have hi := index0_1 t
  have h0 : win0_1.index t 0 = t.val % 49 := congrFun hi 0
  have h1 : win0_1.index t 1 = 0 := congrFun hi 1
  unfold xt0 iblk0
  rw [View.read_apply]
  exact congrArg (V c main_v20) (eq_ix2_of_val _ _ _
    (by show win0_1.index t 0 * 1024 + 1 * k.val = 1024 * (t.val % 49) + k.val; rw [h0]; omega)
    (by show win0_1.index t 1 * 64 + 1 * col.val = col.val; rw [h1]; omega))

theorem cover0 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : ℕ) < 800768 := (i 0).isLt
  have h1 : (i 1 : ℕ) < 64 := (i 1).isLt
  have hN : cfg0.N = 19159 := N0_val
  let t : Fin cfg0.N := ⟨49 * ((i 0 : ℕ) / 2048) + 48, by rw [hN]; omega⟩
  have htv : t.val = 49 * ((i 0 : ℕ) / 2048) + 48 := rfl
  refine ⟨t, (flush0_2_iff t).mpr (by rw [htv]; omega), ?_⟩
  have hi := index0_2 t
  have e0 : win0_2.index t 0 = (i 0 : ℕ) / 2048 := by rw [show win0_2.index t 0 = t.val / 49 from congrFun hi 0, htv]; omega
  have e1 : win0_2.index t 1 = 0 := congrFun hi 1
  show i ∈ ((View.whole main_v21).slice (win0_2.rect t)).set
  rw [View.set_slice_whole, Rect.mem_set_unit]
  intro a
  match a with
  | ⟨0, _⟩ =>
    show win0_2.index t 0 * 2048 ≤ (i 0 : ℕ) ∧ (i 0 : ℕ) < win0_2.index t 0 * 2048 + 2048
    rw [e0]; omega
  | ⟨1, _⟩ =>
    show win0_2.index t 1 * 64 ≤ (i 1 : ℕ) ∧ (i 1 : ℕ) < win0_2.index t 1 * 64 + 64
    rw [e1]; omega

open Cert.PickRun Cert.Spec

theorem point0_value (c : Dev nD) (t : Fin cfg0.N) (s : Vec Ideal S2048x64 .f32) (p : Fin 2048) (col : Fin 64) :
    k0_pay2 (grid0.coords t) (xw0 V c t) (xt0 V c t) s (ix2 p col)
      = s (ix2 p col) + tileSum (wordAt (words0 V c) (2048 * (t.val / 49) + p.val)) (table0 V c) col (t.val % 49) := by
  unfold tileSum
  rw [Cert.KernelIdeal.Pay.k0_pay2_apply, coordIn0, xw0_apply, wordAt_of_lt (words0 V c) _ (row0_lt t p)]
  refine congrArg (s (ix2 p col) + ·) (Finset.sum_congr rfl fun k _ => ?_)
  rw [xt0_apply, rowAt_of_lt (table0 V c) _ col (tile0_lt t k)]

theorem run0_partial (c : Dev nD) (q : ℕ) (p : Fin 2048) (col : Fin 64) :
    ∀ (j : ℕ), j < 49 → ∀ (t : Fin cfg0.N), t.val = 49 * q + j →
      acc0 V c t.val t.isLt (ix2 p col)
        = ∑ i : Fin (j + 1), tileSum (wordAt (words0 V c) (2048 * q + p.val)) (table0 V c) col i.val
  | 0, _, t, ht => by
    have hm : t.val % 49 = 0 := by omega
    have hd : t.val / 49 = q := by omega
    rw [acc0_first V c t hm, point0_value, Cert.KernelIdeal.Pay.k0_pay1_apply, zero_add, hd, hm]
    exact Eq.symm (Fin.sum_univ_one _)
  | j + 1, hj, t, ht => by
    have hm : ¬ t.val % 49 = 0 := by omega
    have hd : t.val / 49 = q := by omega
    have ih := run0_partial c q p col j (by omega) ⟨t.val - 1, Nat.lt_of_le_of_lt (Nat.sub_le _ _) t.isLt⟩
      (show t.val - 1 = 49 * q + j by omega)
    rw [acc0_next V c t hm, point0_value, Fin.sum_univ_castSucc, hd, show t.val % 49 = j + 1 from by omega]
    exact congrArg₂ (· + ·) ih rfl

theorem flushed0_eq (c : Dev nD) (t : Fin cfg0.N) (hf : (cfg0.win 2).flush t = true) :
    (dat0 V c).flushed 2 t = ((cfg0.win 2).blk t).view.read (Elt Ideal) (pick (words0 V c) (table0 V c)) := by
  have h48 := (flush0_2_iff t).mp hf
  have ht := lt0 t
  have hi := index0_2 t
  have e0 : win0_2.index t 0 = t.val / 49 := congrFun hi 0
  have e1 : win0_2.index t 1 = 0 := congrFun hi 1
  show (cfg0.win 2).cut (grid0.coords t) ((dat0 V c).after 2 t) = _
  rw [after0_2]
  funext y
  rw [View.read_apply]
  have hy0 : (y 0 : ℕ) < 2048 := (y 0).isLt
  have hy1 : (y 1 : ℕ) < 64 := (y 1).isLt
  have hrow : 2048 * (t.val / 49) + (y 0 : ℕ) < 800768 := by omega
  have hx : (cfg0.win 2).xinj (grid0.coords t) y = ix2 (⟨(y 0 : ℕ), hy0⟩ : Fin 2048) (⟨(y 1 : ℕ), hy1⟩ : Fin 64) :=
    eq_ix2_of_val _ _ _ rfl rfl
  have hemb : ((cfg0.win 2).blk t).view.emb y
      = ix2 (⟨2048 * (t.val / 49) + (y 0 : ℕ), hrow⟩ : Fin 800768) (⟨(y 1 : ℕ), hy1⟩ : Fin 64) :=
    eq_ix2_of_val _ _ _
      (by show win0_2.index t 0 * 2048 + 1 * (y 0 : ℕ) = 2048 * (t.val / 49) + (y 0 : ℕ); rw [e0]; omega)
      (by show win0_2.index t 1 * 64 + 1 * (y 1 : ℕ) = (y 1 : ℕ); rw [e1]; omega)
  have hL : (cfg0.win 2).cut (grid0.coords t) (acc0 V c t.val t.isLt) y
      = acc0 V c t.val t.isLt ((cfg0.win 2).xinj (grid0.coords t) y) := rfl
  rw [hL, hx, hemb, cast_eq, run0_partial V c (t.val / 49) ⟨(y 0 : ℕ), hy0⟩ ⟨(y 1 : ℕ), hy1⟩ 48 (by decide) t (by omega),
    wordAt_of_lt (words0 V c) _ hrow]
  exact pick_of_tiles (words0 V c) (table0 V c) ⟨_, hrow⟩ _

theorem final0 (c : Dev nD) :
    (dat0 (F := Ideal) V c).arrAt 2 cfg0.N = Cert.Spec.pick (V c main_v15) (V c main_v20) :=
  (dat0 V c).arrAt_eq_of_cover 2 (pick (words0 V c) (table0 V c)) (fun t hf => flushed0_eq V c t hf) (cover0 c)

end Cert.KernelIdeal.Hand

end
-- ==== Proof.IVal1.lean ====
import proofs.«406331_j48928267436271_1_alg».proof.Proof.IData1
import proofs.«406331_j48928267436271_1_alg».proof.Proof.PayIdeal
import proofs.«406331_j48928267436271_1_alg».proof.Proof.Spec
import proofs.«406331_j48928267436271_1_alg».proof.Proof.LibTileSums
import proofs.«406331_j48928267436271_1_alg».proof.Proof.LibPickRun
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators
open Cert.PickRun (eq_ix2_of_val)

variable (V : (c : Dev nD) → (b : Ref sig .tc) → Buf (Elt Ideal) ((c : Thread nD τ).loc b))

abbrev words1 (c : Dev nD) : S1x800768.Idx → BitVec 32 := V c main_v16

abbrev msgs1 (c : Dev nD) : S800768x64.Idx → EReal := V c main_v21

theorem pos1_lt (j : ℕ) (k : Fin 2048) : (j % 391) * 2048 + k.val < 800768 := by
  have := Nat.mod_lt j (by decide : 0 < 391); have := k.isLt; omega

theorem xw1_apply (c : Dev nD) (t : Fin cfg1.N) (k : Fin 2048) :
    xw1 V c t (ix2 (0 : Fin 1) k) = words1 V c (ix2 (0 : Fin 1) ⟨(t.val % 391) * 2048 + k.val, pos1_lt t.val k⟩) := by
  have h0 : win1_0.index t (0 : Fin 2) = 0 := congrFun (index1_0 t) 0
  have h1 : win1_0.index t (1 : Fin 2) = t.val % 391 := congrFun (index1_0 t) 1
  unfold xw1 iblk1
  rw [View.read_apply]
  exact congrArg (V c main_v16) (eq_ix2_of_val _ _ _
    (by show win1_0.index t (0 : Fin 2) * 1 + 1 * 0 = 0; rw [h0])
    (by show win1_0.index t (1 : Fin 2) * 2048 + 1 * k.val = (t.val % 391) * 2048 + k.val; rw [h1]; omega))

theorem xt1_apply (c : Dev nD) (t : Fin cfg1.N) (k : Fin 2048) (col : Fin 64) :
    xt1 V c t (ix2 k col) = msgs1 V c (ix2 ⟨(t.val % 391) * 2048 + k.val, pos1_lt t.val k⟩ col) := by
  have h0 : win1_1.index t (0 : Fin 2) = t.val % 391 := congrFun (index1_1 t) 0
  have h1 : win1_1.index t (1 : Fin 2) = 0 := congrFun (index1_1 t) 1
  unfold xt1 iblk1
  rw [View.read_apply]
  exact congrArg (V c main_v21) (eq_ix2_of_val _ _ _
    (by show win1_1.index t (0 : Fin 2) * 2048 + 1 * k.val = (t.val % 391) * 2048 + k.val; rw [h0]; omega)
    (by show win1_1.index t (1 : Fin 2) * 64 + 1 * col.val = col.val; rw [h1]; omega))

def term1 (c : Dev nD) (row : ℕ) (col : Fin 64) (e : Fin 800768) : EReal :=
  Cert.Spec.hit (words1 V c (ix2 (0 : Fin 1) e)) row * msgs1 V c (ix2 e col)

def blk1 (c : Dev nD) (row : ℕ) (col : Fin 64) (n : ℕ) : EReal :=
  ∑ k : Fin 2048, term1 V c row col ⟨(n % 391) * 2048 + k.val, pos1_lt n k⟩

theorem step1 (c : Dev nD) (t : Fin cfg1.N) (s : Vec Ideal S1024x64 .f32) (r : Fin 1024) (col : Fin 64) :
    k1_pay2 (grid1.coords t) (xw1 V c t) (xt1 V c t) s (ix2 r col)
      = s (ix2 r col) + blk1 V c (1024 * (t.val / 391) + r.val) col t.val := by
  refine (Cert.KernelIdeal.Pay.k1_pay2_apply (grid1.coords t) (xw1 V c t) (xt1 V c t) s r col).trans ?_
  rw [coordOut1]
  refine congrArg (s (ix2 r col) + ·) (Finset.sum_congr rfl fun k _ => ?_)
  unfold term1
  rw [xw1_apply, xt1_apply]

theorem run1_partial (c : Dev nD) (q : ℕ) (r : Fin 1024) (col : Fin 64) :
    ∀ (j : ℕ), j < 391 → ∀ (t : Fin cfg1.N), t.val = 391 * q + j →
      acc1 V c t.val t.isLt (ix2 r col) = ∑ i : Fin (j + 1), blk1 V c (1024 * q + r.val) col (391 * q + i.val)
  | 0, _, t, ht => by
    have hm : t.val % 391 = 0 := by omega
    have hd : t.val / 391 = q := by omega
    rw [acc1_first V c t hm, step1, Cert.KernelIdeal.Pay.k1_pay1_apply, zero_add, Fin.sum_univ_one, hd]
    exact congrArg (blk1 V c (1024 * q + r.val) col) ht
  | j + 1, hj, t, ht => by
    have hm : ¬ t.val % 391 = 0 := by omega
    have hd : t.val / 391 = q := by omega
    have ih := run1_partial c q r col j (by omega) ⟨t.val - 1, Nat.lt_of_le_of_lt (Nat.sub_le _ _) t.isLt⟩
      (show t.val - 1 = 391 * q + j by omega)
    rw [acc1_next V c t hm, step1, Fin.sum_univ_castSucc, hd]
    refine congrArg₂ (· + ·) ih ?_
    exact congrArg (blk1 V c (1024 * q + r.val) col) ht

theorem run1_total (c : Dev nD) (t : Fin cfg1.N) (hm : t.val % 391 = 390) (r : Fin 1024) (col : Fin 64) :
    acc1 V c t.val t.isLt (ix2 r col) = ∑ e : Fin 800768, term1 V c (1024 * (t.val / 391) + r.val) col e := by
  rw [run1_partial V c (t.val / 391) r col 390 (by omega) t (by omega),
    ← Cert.LibTileSums.sum_tiles (A := 391) (B := 2048) (by norm_num : 391 * 2048 = 800768)
      (term1 V c (1024 * (t.val / 391) + r.val) col)]
  refine Finset.sum_congr rfl fun i _ => ?_
  unfold blk1
  refine Finset.sum_congr rfl fun k _ => congrArg _ (Fin.ext ?_)
  show ((391 * (t.val / 391) + i.val) % 391) * 2048 + k.val = i.val * 2048 + k.val
  have := i.isLt
  omega

abbrev out1 (c : Dev nD) : S50176x64.Idx → EReal := Cert.Spec.bins 50176 (words1 V c) (msgs1 V c)

theorem row1_lt (t : Fin cfg1.N) (y : S1024x64.Idx) : 1024 * (t.val / 391) + (y 0).val < 50176 := by
  have := lt1 t; have := idx2_lt0 y; omega

theorem last1_apply (c : Dev nD) (t : Fin cfg1.N) (hm : t.val % 391 = 390) (y : S1024x64.Idx) :
    acc1 V c t.val t.isLt y = out1 V c (ix2 ⟨1024 * (t.val / 391) + (y 0).val, row1_lt t y⟩ (y 1)) := by
  obtain ⟨r, col, rfl⟩ : ∃ (r : Fin 1024) (col : Fin 64), y = ix2 r col := ⟨y 0, y 1, eq_ix2 y⟩
  rw [run1_total V c t hm r col]
  exact (Cert.Spec.bins_apply 50176 (words1 V c) (msgs1 V c) ⟨1024 * (t.val / 391) + r.val, _⟩ col).symm

theorem read_blk1_apply (G : S50176x64.Idx → EReal) (t : Fin cfg1.N) (y : S1024x64.Idx) :
    ((cfg1.win 2).blk t).view.read (Elt Ideal) G y = G (ix2 ⟨1024 * (t.val / 391) + (y 0).val, row1_lt t y⟩ (y 1)) := by
  have h0 : win1_2.index t (0 : Fin 2) = t.val / 391 := congrFun (index1_2 t) 0
  have h1 : win1_2.index t (1 : Fin 2) = 0 := congrFun (index1_2 t) 1
  rw [View.read_apply]
  exact congrArg G (eq_ix2_of_val _ _ _
    (by show win1_2.index t (0 : Fin 2) * 1024 + 1 * (y 0).val = 1024 * (t.val / 391) + (y 0).val; rw [h0]; omega)
    (by show win1_2.index t (1 : Fin 2) * 64 + 1 * (y 1).val = (y 1).val; rw [h1]; omega))

theorem flushed1_eq (c : Dev nD) (t : Fin cfg1.N) (hf : (cfg1.win 2).flush t = true) :
    (dat1 V c).flushed 2 t = ((cfg1.win 2).blk t).view.read (Elt Ideal) (out1 V c) := by
  have hm : t.val % 391 = 390 := (flush1_2_iff t).mp hf
  show (cfg1.win 2).cut (grid1.coords t) ((dat1 V c).after 2 t) = _
  rw [after1_2]
  funext y
  exact (last1_apply V c t hm y).trans (read_blk1_apply (out1 V c) t y).symm

theorem cover1 (i : S50176x64.Idx) :
    ∃ t : Fin cfg1.N, (cfg1.win 2).flush t = true ∧ i ∈ ((cfg1.win 2).blk t).view.set := by
  have hi0 : (i 0).val < 50176 := idx2_lt0 i
  have hi1 : (i 1).val < 64 := idx2_lt1 i
  let t : Fin cfg1.N := ⟨391 * ((i 0).val / 1024) + 390, by rw [N1_val]; omega⟩
  have htv : t.val = 391 * ((i 0).val / 1024) + 390 := rfl
  refine ⟨t, (flush1_2_iff t).mpr (by rw [htv]; omega), ?_⟩
  have h0 : win1_2.index t (0 : Fin 2) = (i 0).val / 1024 := by
    rw [show win1_2.index t (0 : Fin 2) = t.val / 391 from congrFun (index1_2 t) 0, htv]; omega
  have h1 : win1_2.index t (1 : Fin 2) = 0 := congrFun (index1_2 t) 1
  show i ∈ ((View.whole main_v22).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [h0]; omega
  | ⟨1, _⟩ =>
    show win1_2.index t (1 : Fin 2) * 64 ≤ (i 1).val ∧ (i 1).val < win1_2.index t (1 : Fin 2) * 64 + 64
    rw [h1]; omega

theorem final1 (c : Dev nD) :
    (dat1 (F := Ideal) V c).arrAt 2 cfg1.N = Cert.Spec.bins 50176 (V c main_v16) (V c main_v21) :=
  (dat1 V c).arrAt_eq_of_cover 2 (out1 V c) (fun t hf => flushed1_eq V c t hf) (cover1)

end Cert.KernelIdeal.Hand

end
-- ==== Proof.IVal2.lean ====
import proofs.«406331_j48928267436271_1_alg».proof.Proof.IData2
import proofs.«406331_j48928267436271_1_alg».proof.Proof.PayIdeal
import proofs.«406331_j48928267436271_1_alg».proof.Proof.Spec
import proofs.«406331_j48928267436271_1_alg».proof.Proof.LibTileSums
import proofs.«406331_j48928267436271_1_alg».proof.Proof.LibPickRun
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators
open Cert.PickRun (eq_ix2_of_val)

variable (V : (c : Dev nD) → (b : Ref sig .tc) → Buf (Elt Ideal) ((c : Thread nD τ).loc b))

abbrev words2 (c : Dev nD) : S800768x1.Idx → BitVec 32 := V c main_v15

abbrev table2 (c : Dev nD) : S50176x64.Idx → EReal := V c main_v36

theorem row2_lt (t : Fin cfg2.N) (p : Fin 2048) : 2048 * (t.val / 49) + p.val < 800768 := by
  have := lt2 t; have := p.isLt; omega

theorem tile2_lt (t : Fin cfg2.N) (k : Fin 1024) : 1024 * (t.val % 49) + k.val < 50176 := by
  have := k.isLt; have := Nat.mod_lt t.val (by decide : 0 < 49); omega

theorem xw2_apply (c : Dev nD) (t : Fin cfg2.N) (p : Fin 2048) :
    xw2 V c t (ix2 p (0 : Fin 1)) = words2 V c (ix2 ⟨2048 * (t.val / 49) + p.val, row2_lt t p⟩ (0 : Fin 1)) := by
  have hi := index2_0 t
  have h0 : win2_0.index t 0 = t.val / 49 := congrFun hi 0
  have h1 : win2_0.index t 1 = 0 := congrFun hi 1
  unfold xw2 iblk2
  rw [View.read_apply]
  exact congrArg (V c main_v15) (eq_ix2_of_val _ _ _
    (by show win2_0.index t 0 * 2048 + 1 * p.val = 2048 * (t.val / 49) + p.val; rw [h0]; omega)
    (by show win2_0.index t 1 * 1 + 1 * 0 = 0; rw [h1]))

theorem xt2_apply (c : Dev nD) (t : Fin cfg2.N) (k : Fin 1024) (col : Fin 64) :
    xt2 V c t (ix2 k col) = table2 V c (ix2 ⟨1024 * (t.val % 49) + k.val, tile2_lt t k⟩ col) := by
  have hi := index2_1 t
  have h0 : win2_1.index t 0 = t.val % 49 := congrFun hi 0
  have h1 : win2_1.index t 1 = 0 := congrFun hi 1
  unfold xt2 iblk2
  rw [View.read_apply]
  exact congrArg (V c main_v36) (eq_ix2_of_val _ _ _
    (by show win2_1.index t 0 * 1024 + 1 * k.val = 1024 * (t.val % 49) + k.val; rw [h0]; omega)
    (by show win2_1.index t 1 * 64 + 1 * col.val = col.val; rw [h1]; omega))

theorem cover2 (c : Dev nD) (i : ((cfg2.win 2).arr.view.loc (c.tc : Thread nD τ)).2.ty.Idx) :
    ∃ t : Fin cfg2.N, (cfg2.win 2).flush t = true ∧ i ∈ ((cfg2.win 2).blk t).view.set := by
  have h0 : (i 0 : ℕ) < 800768 := (i 0).isLt
  have h1 : (i 1 : ℕ) < 64 := (i 1).isLt
  have hN : cfg2.N = 19159 := N2_val
  let t : Fin cfg2.N := ⟨49 * ((i 0 : ℕ) / 2048) + 48, by rw [hN]; omega⟩
  have htv : t.val = 49 * ((i 0 : ℕ) / 2048) + 48 := rfl
  refine ⟨t, (flush2_2_iff t).mpr (by rw [htv]; omega), ?_⟩
  have hi := index2_2 t
  have e0 : win2_2.index t 0 = (i 0 : ℕ) / 2048 := by rw [show win2_2.index t 0 = t.val / 49 from congrFun hi 0, htv]; omega
  have e1 : win2_2.index t 1 = 0 := congrFun hi 1
  show i ∈ ((View.whole main_v37).slice (win2_2.rect t)).set
  rw [View.set_slice_whole, Rect.mem_set_unit]
  intro a
  match a with
  | ⟨0, _⟩ =>
    show win2_2.index t 0 * 2048 ≤ (i 0 : ℕ) ∧ (i 0 : ℕ) < win2_2.index t 0 * 2048 + 2048
    rw [e0]; omega
  | ⟨1, _⟩ =>
    show win2_2.index t 1 * 64 ≤ (i 1 : ℕ) ∧ (i 1 : ℕ) < win2_2.index t 1 * 64 + 64
    rw [e1]; omega

open Cert.PickRun Cert.Spec

theorem point2_value (c : Dev nD) (t : Fin cfg2.N) (s : Vec Ideal S2048x64 .f32) (p : Fin 2048) (col : Fin 64) :
    k2_pay2 (grid2.coords t) (xw2 V c t) (xt2 V c t) s (ix2 p col)
      = s (ix2 p col) + tileSum (wordAt (words2 V c) (2048 * (t.val / 49) + p.val)) (table2 V c) col (t.val % 49) := by
  unfold tileSum
  rw [Cert.KernelIdeal.Pay.k2_pay2_apply, coordIn2, xw2_apply, wordAt_of_lt (words2 V c) _ (row2_lt t p)]
  refine congrArg (s (ix2 p col) + ·) (Finset.sum_congr rfl fun k _ => ?_)
  rw [xt2_apply, rowAt_of_lt (table2 V c) _ col (tile2_lt t k)]

theorem run2_partial (c : Dev nD) (q : ℕ) (p : Fin 2048) (col : Fin 64) :
    ∀ (j : ℕ), j < 49 → ∀ (t : Fin cfg2.N), t.val = 49 * q + j →
      acc2 V c t.val t.isLt (ix2 p col)
        = ∑ i : Fin (j + 1), tileSum (wordAt (words2 V c) (2048 * q + p.val)) (table2 V c) col i.val
  | 0, _, t, ht => by
    have hm : t.val % 49 = 0 := by omega
    have hd : t.val / 49 = q := by omega
    rw [acc2_first V c t hm, point2_value, Cert.KernelIdeal.Pay.k2_pay1_apply, zero_add, hd, hm]
    exact Eq.symm (Fin.sum_univ_one _)
  | j + 1, hj, t, ht => by
    have hm : ¬ t.val % 49 = 0 := by omega
    have hd : t.val / 49 = q := by omega
    have ih := run2_partial c q p col j (by omega) ⟨t.val - 1, Nat.lt_of_le_of_lt (Nat.sub_le _ _) t.isLt⟩
      (show t.val - 1 = 49 * q + j by omega)
    rw [acc2_next V c t hm, point2_value, Fin.sum_univ_castSucc, hd, show t.val % 49 = j + 1 from by omega]
    exact congrArg₂ (· + ·) ih rfl

theorem flushed2_eq (c : Dev nD) (t : Fin cfg2.N) (hf : (cfg2.win 2).flush t = true) :
    (dat2 V c).flushed 2 t = ((cfg2.win 2).blk t).view.read (Elt Ideal) (pick (words2 V c) (table2 V c)) := by
  have h48 := (flush2_2_iff t).mp hf
  have ht := lt2 t
  have hi := index2_2 t
  have e0 : win2_2.index t 0 = t.val / 49 := congrFun hi 0
  have e1 : win2_2.index t 1 = 0 := congrFun hi 1
  show (cfg2.win 2).cut (grid2.coords t) ((dat2 V c).after 2 t) = _
  rw [after2_2]
  funext y
  rw [View.read_apply]
  have hy0 : (y 0 : ℕ) < 2048 := (y 0).isLt
  have hy1 : (y 1 : ℕ) < 64 := (y 1).isLt
  have hrow : 2048 * (t.val / 49) + (y 0 : ℕ) < 800768 := by omega
  have hx : (cfg2.win 2).xinj (grid2.coords t) y = ix2 (⟨(y 0 : ℕ), hy0⟩ : Fin 2048) (⟨(y 1 : ℕ), hy1⟩ : Fin 64) :=
    eq_ix2_of_val _ _ _ rfl rfl
  have hemb : ((cfg2.win 2).blk t).view.emb y
      = ix2 (⟨2048 * (t.val / 49) + (y 0 : ℕ), hrow⟩ : Fin 800768) (⟨(y 1 : ℕ), hy1⟩ : Fin 64) :=
    eq_ix2_of_val _ _ _
      (by show win2_2.index t 0 * 2048 + 1 * (y 0 : ℕ) = 2048 * (t.val / 49) + (y 0 : ℕ); rw [e0]; omega)
      (by show win2_2.index t 1 * 64 + 1 * (y 1 : ℕ) = (y 1 : ℕ); rw [e1]; omega)
  have hL : (cfg2.win 2).cut (grid2.coords t) (acc2 V c t.val t.isLt) y
      = acc2 V c t.val t.isLt ((cfg2.win 2).xinj (grid2.coords t) y) := rfl
  rw [hL, hx, hemb, cast_eq, run2_partial V c (t.val / 49) ⟨(y 0 : ℕ), hy0⟩ ⟨(y 1 : ℕ), hy1⟩ 48 (by decide) t (by omega),
    wordAt_of_lt (words2 V c) _ hrow]
  exact pick_of_tiles (words2 V c) (table2 V c) ⟨_, hrow⟩ _

theorem final2 (c : Dev nD) :
    (dat2 (F := Ideal) V c).arrAt 2 cfg2.N = Cert.Spec.pick (V c main_v15) (V c main_v36) :=
  (dat2 V c).arrAt_eq_of_cover 2 (pick (words2 V c) (table2 V c)) (fun t hf => flushed2_eq V c t hf) (cover2 c)

end Cert.KernelIdeal.Hand

end
-- ==== Proof.IVal3.lean ====
import proofs.«406331_j48928267436271_1_alg».proof.Proof.IData3
import proofs.«406331_j48928267436271_1_alg».proof.Proof.PayIdeal
import proofs.«406331_j48928267436271_1_alg».proof.Proof.Spec
import proofs.«406331_j48928267436271_1_alg».proof.Proof.LibTileSums
import proofs.«406331_j48928267436271_1_alg».proof.Proof.LibPickRun
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators
open Cert.PickRun (eq_ix2_of_val)

variable (V : (c : Dev nD) → (b : Ref sig .tc) → Buf (Elt Ideal) ((c : Thread nD τ).loc b))

abbrev words3 (c : Dev nD) : S1x800768.Idx → BitVec 32 := V c main_v16

abbrev msgs3 (c : Dev nD) : S800768x64.Idx → EReal := V c main_v37

theorem pos3_lt (j : ℕ) (k : Fin 2048) : (j % 391) * 2048 + k.val < 800768 := by
  have := Nat.mod_lt j (by decide : 0 < 391); have := k.isLt; omega

theorem xw3_apply (c : Dev nD) (t : Fin cfg3.N) (k : Fin 2048) :
    xw3 V c t (ix2 (0 : Fin 1) k) = words3 V c (ix2 (0 : Fin 1) ⟨(t.val % 391) * 2048 + k.val, pos3_lt t.val k⟩) := by
  have h0 : win3_0.index t (0 : Fin 2) = 0 := congrFun (index3_0 t) 0
  have h1 : win3_0.index t (1 : Fin 2) = t.val % 391 := congrFun (index3_0 t) 1
  unfold xw3 iblk3
  rw [View.read_apply]
  exact congrArg (V c main_v16) (eq_ix2_of_val _ _ _
    (by show win3_0.index t (0 : Fin 2) * 1 + 1 * 0 = 0; rw [h0])
    (by show win3_0.index t (1 : Fin 2) * 2048 + 1 * k.val = (t.val % 391) * 2048 + k.val; rw [h1]; omega))

theorem xt3_apply (c : Dev nD) (t : Fin cfg3.N) (k : Fin 2048) (col : Fin 64) :
    xt3 V c t (ix2 k col) = msgs3 V c (ix2 ⟨(t.val % 391) * 2048 + k.val, pos3_lt t.val k⟩ col) := by
  have h0 : win3_1.index t (0 : Fin 2) = t.val % 391 := congrFun (index3_1 t) 0
  have h1 : win3_1.index t (1 : Fin 2) = 0 := congrFun (index3_1 t) 1
  unfold xt3 iblk3
  rw [View.read_apply]
  exact congrArg (V c main_v37) (eq_ix2_of_val _ _ _
    (by show win3_1.index t (0 : Fin 2) * 2048 + 1 * k.val = (t.val % 391) * 2048 + k.val; rw [h0]; omega)
    (by show win3_1.index t (1 : Fin 2) * 64 + 1 * col.val = col.val; rw [h1]; omega))

def term3 (c : Dev nD) (row : ℕ) (col : Fin 64) (e : Fin 800768) : EReal :=
  Cert.Spec.hit (words3 V c (ix2 (0 : Fin 1) e)) row * msgs3 V c (ix2 e col)

def blk3 (c : Dev nD) (row : ℕ) (col : Fin 64) (n : ℕ) : EReal :=
  ∑ k : Fin 2048, term3 V c row col ⟨(n % 391) * 2048 + k.val, pos3_lt n k⟩

theorem step3 (c : Dev nD) (t : Fin cfg3.N) (s : Vec Ideal S1024x64 .f32) (r : Fin 1024) (col : Fin 64) :
    k3_pay2 (grid3.coords t) (xw3 V c t) (xt3 V c t) s (ix2 r col)
      = s (ix2 r col) + blk3 V c (1024 * (t.val / 391) + r.val) col t.val := by
  refine (Cert.KernelIdeal.Pay.k3_pay2_apply (grid3.coords t) (xw3 V c t) (xt3 V c t) s r col).trans ?_
  rw [coordOut3]
  refine congrArg (s (ix2 r col) + ·) (Finset.sum_congr rfl fun k _ => ?_)
  unfold term3
  rw [xw3_apply, xt3_apply]

theorem run3_partial (c : Dev nD) (q : ℕ) (r : Fin 1024) (col : Fin 64) :
    ∀ (j : ℕ), j < 391 → ∀ (t : Fin cfg3.N), t.val = 391 * q + j →
      acc3 V c t.val t.isLt (ix2 r col) = ∑ i : Fin (j + 1), blk3 V c (1024 * q + r.val) col (391 * q + i.val)
  | 0, _, t, ht => by
    have hm : t.val % 391 = 0 := by omega
    have hd : t.val / 391 = q := by omega
    rw [acc3_first V c t hm, step3, Cert.KernelIdeal.Pay.k3_pay1_apply, zero_add, Fin.sum_univ_one, hd]
    exact congrArg (blk3 V c (1024 * q + r.val) col) ht
  | j + 1, hj, t, ht => by
    have hm : ¬ t.val % 391 = 0 := by omega
    have hd : t.val / 391 = q := by omega
    have ih := run3_partial c q r col j (by omega) ⟨t.val - 1, Nat.lt_of_le_of_lt (Nat.sub_le _ _) t.isLt⟩
      (show t.val - 1 = 391 * q + j by omega)
    rw [acc3_next V c t hm, step3, Fin.sum_univ_castSucc, hd]
    refine congrArg₂ (· + ·) ih ?_
    exact congrArg (blk3 V c (1024 * q + r.val) col) ht

theorem run3_total (c : Dev nD) (t : Fin cfg3.N) (hm : t.val % 391 = 390) (r : Fin 1024) (col : Fin 64) :
    acc3 V c t.val t.isLt (ix2 r col) = ∑ e : Fin 800768, term3 V c (1024 * (t.val / 391) + r.val) col e := by
  rw [run3_partial V c (t.val / 391) r col 390 (by omega) t (by omega),
    ← Cert.LibTileSums.sum_tiles (A := 391) (B := 2048) (by norm_num : 391 * 2048 = 800768)
      (term3 V c (1024 * (t.val / 391) + r.val) col)]
  refine Finset.sum_congr rfl fun i _ => ?_
  unfold blk3
  refine Finset.sum_congr rfl fun k _ => congrArg _ (Fin.ext ?_)
  show ((391 * (t.val / 391) + i.val) % 391) * 2048 + k.val = i.val * 2048 + k.val
  have := i.isLt
  omega

abbrev out3 (c : Dev nD) : S50176x64.Idx → EReal := Cert.Spec.bins 50176 (words3 V c) (msgs3 V c)

theorem row3_lt (t : Fin cfg3.N) (y : S1024x64.Idx) : 1024 * (t.val / 391) + (y 0).val < 50176 := by
  have := lt3 t; have := idx2_lt0 y; omega

theorem last3_apply (c : Dev nD) (t : Fin cfg3.N) (hm : t.val % 391 = 390) (y : S1024x64.Idx) :
    acc3 V c t.val t.isLt y = out3 V c (ix2 ⟨1024 * (t.val / 391) + (y 0).val, row3_lt t y⟩ (y 1)) := by
  obtain ⟨r, col, rfl⟩ : ∃ (r : Fin 1024) (col : Fin 64), y = ix2 r col := ⟨y 0, y 1, eq_ix2 y⟩
  rw [run3_total V c t hm r col]
  exact (Cert.Spec.bins_apply 50176 (words3 V c) (msgs3 V c) ⟨1024 * (t.val / 391) + r.val, _⟩ col).symm

theorem read_blk3_apply (G : S50176x64.Idx → EReal) (t : Fin cfg3.N) (y : S1024x64.Idx) :
    ((cfg3.win 2).blk t).view.read (Elt Ideal) G y = G (ix2 ⟨1024 * (t.val / 391) + (y 0).val, row3_lt t y⟩ (y 1)) := by
  have h0 : win3_2.index t (0 : Fin 2) = t.val / 391 := congrFun (index3_2 t) 0
  have h1 : win3_2.index t (1 : Fin 2) = 0 := congrFun (index3_2 t) 1
  rw [View.read_apply]
  exact congrArg G (eq_ix2_of_val _ _ _
    (by show win3_2.index t (0 : Fin 2) * 1024 + 1 * (y 0).val = 1024 * (t.val / 391) + (y 0).val; rw [h0]; omega)
    (by show win3_2.index t (1 : Fin 2) * 64 + 1 * (y 1).val = (y 1).val; rw [h1]; omega))

theorem flushed3_eq (c : Dev nD) (t : Fin cfg3.N) (hf : (cfg3.win 2).flush t = true) :
    (dat3 V c).flushed 2 t = ((cfg3.win 2).blk t).view.read (Elt Ideal) (out3 V c) := by
  have hm : t.val % 391 = 390 := (flush3_2_iff t).mp hf
  show (cfg3.win 2).cut (grid3.coords t) ((dat3 V c).after 2 t) = _
  rw [after3_2]
  funext y
  exact (last3_apply V c t hm y).trans (read_blk3_apply (out3 V c) t y).symm

theorem cover3 (i : S50176x64.Idx) :
    ∃ t : Fin cfg3.N, (cfg3.win 2).flush t = true ∧ i ∈ ((cfg3.win 2).blk t).view.set := by
  have hi0 : (i 0).val < 50176 := idx2_lt0 i
  have hi1 : (i 1).val < 64 := idx2_lt1 i
  let t : Fin cfg3.N := ⟨391 * ((i 0).val / 1024) + 390, by rw [N3_val]; omega⟩
  have htv : t.val = 391 * ((i 0).val / 1024) + 390 := rfl
  refine ⟨t, (flush3_2_iff t).mpr (by rw [htv]; omega), ?_⟩
  have h0 : win3_2.index t (0 : Fin 2) = (i 0).val / 1024 := by
    rw [show win3_2.index t (0 : Fin 2) = t.val / 391 from congrFun (index3_2 t) 0, htv]; omega
  have h1 : win3_2.index t (1 : Fin 2) = 0 := congrFun (index3_2 t) 1
  show i ∈ ((View.whole main_v38).slice (win3_2.rect t)).set
  rw [View.set_slice_whole, Rect.mem_set_unit]
  intro a
  match a with
  | ⟨0, _⟩ =>
    show win3_2.index t (0 : Fin 2) * 1024 ≤ (i 0).val ∧ (i 0).val < win3_2.index t (0 : Fin 2) * 1024 + 1024
    rw [h0]; omega
  | ⟨1, _⟩ =>
    show win3_2.index t (1 : Fin 2) * 64 ≤ (i 1).val ∧ (i 1).val < win3_2.index t (1 : Fin 2) * 64 + 64
    rw [h1]; omega

theorem final3 (c : Dev nD) :
    (dat3 (F := Ideal) V c).arrAt 2 cfg3.N = Cert.Spec.bins 50176 (V c main_v16) (V c main_v37) :=
  (dat3 V c).arrAt_eq_of_cover 2 (out3 V c) (fun t hf => flushed3_eq V c t hf) (cover3)

end Cert.KernelIdeal.Hand

end
-- ==== Proof.IOut.lean ====
import proofs.«406331_j48928267436271_1_alg».proof.Proof.IRun
import proofs.«406331_j48928267436271_1_alg».proof.Proof.Spec
import proofs.«406331_j48928267436271_1_alg».proof.Proof.Bridge
import proofs.«406331_j48928267436271_1_alg».proof.Proof.IVal0
import proofs.«406331_j48928267436271_1_alg».proof.Proof.IVal1
import proofs.«406331_j48928267436271_1_alg».proof.Proof.IVal2
import proofs.«406331_j48928267436271_1_alg».proof.Proof.IVal3
import Idealize.ShloMosaic.Lib.StableHlo.Run
import Idealize.ShloMosaic.Lib.Pipeline.Value

noncomputable section

namespace Cert.KernelIdeal.Hand

open Cert.KernelIdeal Cert.KernelIdeal.Gen
open Idealize.ShloMosaic Idealize.ShloMosaic.TcCoe
open Idealize.ShloMosaic.Pipeline (Dat Cfg Window)

def deg (idx : IVec S800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 idx)
    (broadcastInDim S800000 ![] bcast_S_S800000 (constant (F := Ideal) S_ .f32 0x3F800000#32))

def normK (idx : IVec S800000 32) : FVec Ideal S50000 .f32 :=
  Host.powf (F := Ideal)
    (maximumf (broadcastInDim S50000 ![] bcast_S_S50000 (id (constant (F := Ideal) S_ .f32 0x3F800000#32))) (deg idx))
    (broadcastInDim S50000 ![] bcast_S_S50000 (constant (F := Ideal) S_ .f32 0xBF000000#32))

def bb64 (n : FVec Ideal S50000 .f32) : FVec Ideal S50000x64 .f32 :=
  broadcastInDim S50000x64 ![0, 1] bcast_S50000x1_S50000x64_0_1 (broadcastInDim S50000x1 ![0] bcast_S50000_S50000x1_0 n)

def bb128 (n : FVec Ideal S50000 .f32) : FVec Ideal S50000x128 .f32 :=
  broadcastInDim S50000x128 ![0, 1] bcast_S50000x1_S50000x128_0_1 (broadcastInDim S50000x1 ![0] bcast_S50000_S50000x1_0 n)

def row128 (b : FVec Ideal S128 .f32) : FVec Ideal S50000x128 .f32 :=
  broadcastInDim S50000x128 ![0, 1] bcast_S1x128_S50000x128_0_1 (broadcastInDim S1x128 ![1] bcast_S128_S1x128_1 b)

def row64 (b : FVec Ideal S64 .f32) : FVec Ideal S50000x64 .f32 :=
  broadcastInDim S50000x64 ![0, 1] bcast_S1x64_S50000x64_0_1 (broadcastInDim S1x64 ![1] bcast_S64_S1x64_1 b)

section Ops
variable (V : Valuation τ sig (Elt Ideal))

theorem ops0_v3 : StableHlo.after hostOps0 V (Proc.devRef .tc main_v3) = deg (V (Proc.devRef .tc main_arg5)) := by
  after_results <;> rfl

theorem ops0_v6 : StableHlo.after hostOps0 V (Proc.devRef .tc main_v6) = deg (V (Proc.devRef .tc main_arg6)) := by
  after_results <;> rfl

theorem ops0_cst2 : StableHlo.after hostOps0 V (Proc.devRef .tc main_cst_2) = constant (F := Ideal) S_ .f32 0x3F800000#32 := by
  after_results

theorem ops0_1_v7 : StableHlo.after hostOps0_1 V (Proc.devRef .tc main_v7)
    = (maximumf (broadcastInDim S50000 ![] bcast_S_S50000 (id (V (Proc.devRef .tc main_cst_2)))) (V (Proc.devRef .tc main_v3)) : FVec Ideal S50000 .f32) := by
  after_results <;> rfl

theorem ops0_2_v9 : StableHlo.after hostOps0_2 V (Proc.devRef .tc main_v9)
    = (Host.powf (F := Ideal) (V (Proc.devRef .tc main_v7)) (broadcastInDim S50000 ![] bcast_S_S50000 (constant (F := Ideal) S_ .f32 0xBF000000#32)) : FVec Ideal S50000 .f32) := by
  after_results <;> rfl

theorem ops0_2_cst4 : StableHlo.after hostOps0_2 V (Proc.devRef .tc main_cst_4) = constant (F := Ideal) S_ .f32 0x3F800000#32 := by
  after_results

theorem ops0_3_v10 : StableHlo.after hostOps0_3 V (Proc.devRef .tc main_v10)
    = (maximumf (broadcastInDim S50000 ![] bcast_S_S50000 (id (V (Proc.devRef .tc main_cst_4)))) (V (Proc.devRef .tc main_v6)) : FVec Ideal S50000 .f32) := by
  after_results <;> rfl

theorem ops0_4_v12 : StableHlo.after hostOps0_4 V (Proc.devRef .tc main_v12)
    = (Host.powf (F := Ideal) (V (Proc.devRef .tc main_v10)) (broadcastInDim S50000 ![] bcast_S_S50000 (constant (F := Ideal) S_ .f32 0xBF000000#32)) : FVec Ideal S50000 .f32) := by
  after_results <;> rfl

theorem ops0_4_c : StableHlo.after hostOps0_4 V (Proc.devRef .tc main_c) = (constantI S_ 32 0#32 : IVec S_ 32) := by
  after_results

theorem ops0_5_v13 : StableHlo.after hostOps0_5 V (Proc.devRef .tc main_v13)
    = (pad S800768 ![0] ![768] ![0] (V (Proc.devRef .tc main_arg5)) (id (V (Proc.devRef .tc main_c))) pads_S800000_S800768_07680 h_S_ : IVec S800768 32) := by
  after_results <;> rfl

theorem ops0_6_c6 : StableHlo.after hostOps0_6 V (Proc.devRef .tc main_c_6) = (constantI S_ 32 50176#32 : IVec S_ 32) := by
  after_results

theorem ops0_7_v14 : StableHlo.after hostOps0_7 V (Proc.devRef .tc main_v14)
    = (pad S800768 ![0] ![768] ![0] (V (Proc.devRef .tc main_arg6)) (id (V (Proc.devRef .tc main_c_6))) pads_S800000_S800768_07680 h_S_ : IVec S800768 32) := by
  after_results <;> rfl

theorem ops0_8_v15 : StableHlo.after hostOps0_8 V (Proc.devRef .tc main_v15)
    = (shapeCast S800768x1 (V (Proc.devRef .tc main_v13)) shapeCasts_S800768_S800768x1 : IVec S800768x1 32) := by
  after_results <;> rfl

theorem ops0_8_v16 : StableHlo.after hostOps0_8 V (Proc.devRef .tc main_v16)
    = (shapeCast S1x800768 (V (Proc.devRef .tc main_v14)) shapeCasts_S800768_S1x800768 : IVec S1x800768 32) := by
  after_results <;> rfl

theorem ops0_8_v19 : StableHlo.after hostOps0_8 V (Proc.devRef .tc main_v19)
    = (mulf (V (Proc.devRef .tc main_arg0)) (bb64 (V (Proc.devRef .tc main_v9))) : FVec Ideal S50000x64 .f32) := by
  after_results <;> rfl

theorem ops0_8_c7 : StableHlo.after hostOps0_8 V (Proc.devRef .tc main_c_7) = (constantI S_ 32 0#32 : IVec S_ 32) := by
  after_results

theorem ops0_9_v20 : StableHlo.after hostOps0_9 V (Proc.devRef .tc main_v20)
    = (pad S50176x64 ![0, 0] ![176, 0] ![0, 0] (V (Proc.devRef .tc main_v19)) (sitofp (F := Ideal) .f32 (V (Proc.devRef .tc main_c_7))) pads_S50000x64_S50176x64_01760_000 h_S_ : FVec Ideal S50176x64 .f32) := by
  after_results <;> rfl

theorem ops2_v30 : StableHlo.after hostOps2 V (Proc.devRef .tc main_v30)
    = (addf (mulf (Host.dotGeneral (F := Ideal) (φ₁ := .f32) (φ₂ := .f32) dot_S50000x64_S64x128_S50000x128_1_0_0_1_n_n none
          (extractStridedSlice S50000x64 ![0, 0] (V (Proc.devRef .tc main_v22) : FVec Ideal S50176x64 .f32) slices_S50176x64_S50000x64_0_0) (V (Proc.devRef .tc main_arg1) : FVec Ideal S64x128 .f32))
        (bb128 (V (Proc.devRef .tc main_v12)))) (row128 (V (Proc.devRef .tc main_arg2))) : FVec Ideal S50000x128 .f32) := by
  after_results <;> rfl

theorem ops2_1_v31 : StableHlo.after hostOps2_1 V (Proc.devRef .tc main_v31)
    = (maximumf (V (Proc.devRef .tc main_v30)) (broadcastInDim S50000x128 ![] bcast_S_S50000x128 (constant (F := Ideal) S_ .f32 0x00000000#32)) : FVec Ideal S50000x128 .f32) := by
  after_results <;> rfl

theorem ops2_2_v35 : StableHlo.after hostOps2_2 V (Proc.devRef .tc main_v35)
    = (Host.dotGeneral (F := Ideal) (φ₁ := .f32) (φ₂ := .f32) dot_S50000x128_S128x64_S50000x64_1_0_0_1_n_n none
        (mulf (V (Proc.devRef .tc main_v31)) (bb128 (V (Proc.devRef .tc main_v9)))) (V (Proc.devRef .tc main_arg3) : FVec Ideal S128x64 .f32) : FVec Ideal S50000x64 .f32) := by
  after_results <;> rfl

theorem ops2_2_c8 : StableHlo.after hostOps2_2 V (Proc.devRef .tc main_c_8) = (constantI S_ 32 0#32 : IVec S_ 32) := by
  after_results

theorem ops2_3_v36 : StableHlo.after hostOps2_3 V (Proc.devRef .tc main_v36)
    = (pad S50176x64 ![0, 0] ![176, 0] ![0, 0] (V (Proc.devRef .tc main_v35)) (sitofp (F := Ideal) .f32 (V (Proc.devRef .tc main_c_8))) pads_S50000x64_S50176x64_01760_000 h_S_ : FVec Ideal S50176x64 .f32) := by
  after_results <;> rfl

theorem ops4_v45 : StableHlo.after hostOps4 V (Proc.devRef .tc main_v45)
    = (addf (mulf (extractStridedSlice S50000x64 ![0, 0] (V (Proc.devRef .tc main_v38) : FVec Ideal S50176x64 .f32) slices_S50176x64_S50000x64_0_0) (bb64 (V (Proc.devRef .tc main_v12))))
        (row64 (V (Proc.devRef .tc main_arg4))) : FVec Ideal S50000x64 .f32) := by
  after_results <;> rfl

end Ops

variable (m : (ℓ : Loc nD τ sig) → Buf (Elt Ideal) ℓ)

theorem Wv2_of (c : Dev nD) (r : Ref sig .tc) (h : r ∉ hostOps0_1_W) :
    Wv2 m c (Proc.devRef .tc r) = Wv1 m c (Proc.devRef .tc r) := V2_of m c r h

theorem Wv3_of (c : Dev nD) (r : Ref sig .tc) (h : r ∉ hostOps0_2_W) :
    Wv3 m c (Proc.devRef .tc r) = Wv2 m c (Proc.devRef .tc r) := V3_of m c r h

theorem Wv4_of (c : Dev nD) (r : Ref sig .tc) (h : r ∉ hostOps0_3_W) :
    Wv4 m c (Proc.devRef .tc r) = Wv3 m c (Proc.devRef .tc r) := V4_of m c r h

theorem Wv5_of (c : Dev nD) (r : Ref sig .tc) (h : r ∉ hostOps0_4_W) :
    Wv5 m c (Proc.devRef .tc r) = Wv4 m c (Proc.devRef .tc r) := V5_of m c r h

theorem Wv6_of (c : Dev nD) (r : Ref sig .tc) (h : r ∉ hostOps0_5_W) :
    Wv6 m c (Proc.devRef .tc r) = Wv5 m c (Proc.devRef .tc r) := V6_of m c r h

theorem Wv7_of (c : Dev nD) (r : Ref sig .tc) (h : r ∉ hostOps0_6_W) :
    Wv7 m c (Proc.devRef .tc r) = Wv6 m c (Proc.devRef .tc r) := V7_of m c r h

theorem Wv8_of (c : Dev nD) (r : Ref sig .tc) (h : r ∉ hostOps0_7_W) :
    Wv8 m c (Proc.devRef .tc r) = Wv7 m c (Proc.devRef .tc r) := V8_of m c r h

theorem Wv9_of (c : Dev nD) (r : Ref sig .tc) (h : r ∉ hostOps0_8_W) :
    Wv9 m c (Proc.devRef .tc r) = Wv8 m c (Proc.devRef .tc r) := V9_of m c r h

theorem Wv10_of (c : Dev nD) (r : Ref sig .tc) (h : r ∉ hostOps0_9_W) :
    Wv10 m c (Proc.devRef .tc r) = Wv9 m c (Proc.devRef .tc r) := V10_of m c r h

theorem Wv13_of (c : Dev nD) (r : Ref sig .tc) (h : r ∉ hostOps2_W) :
    Wv13 m c (Proc.devRef .tc r) = Wv12 m c (Proc.devRef .tc r) :=
  StableHlo.after_of_writes_sub hostOps2 _ hostOps2_writes h

theorem Wv14_of (c : Dev nD) (r : Ref sig .tc) (h : r ∉ hostOps2_1_W) :
    Wv14 m c (Proc.devRef .tc r) = Wv13 m c (Proc.devRef .tc r) :=
  StableHlo.after_of_writes_sub hostOps2_1 _ hostOps2_1_writes h

theorem Wv15_of (c : Dev nD) (r : Ref sig .tc) (h : r ∉ hostOps2_2_W) :
    Wv15 m c (Proc.devRef .tc r) = Wv14 m c (Proc.devRef .tc r) :=
  StableHlo.after_of_writes_sub hostOps2_2 _ hostOps2_2_writes h

theorem Wv16_of (c : Dev nD) (r : Ref sig .tc) (h : r ∉ hostOps2_3_W) :
    Wv16 m c (Proc.devRef .tc r) = Wv15 m c (Proc.devRef .tc r) :=
  StableHlo.after_of_writes_sub hostOps2_3 _ hostOps2_3_writes h

theorem Wv11_in0 (c : Dev nD) :
    Wv11 m c (Proc.devRef .tc main_v15) = Wv10 m c (Proc.devRef .tc main_v15) :=
  (Wv11_arr m c 0).trans (((dat0 (fun c b => Wv10 m c b) c).arrAt_in 0 rfl _).trans (A_eq0 _ c 0))

theorem Wv11_out (c : Dev nD) :
    Wv11 m c (Proc.devRef .tc main_v21)
      = Cert.Spec.pick (Wv10 m c (Proc.devRef .tc main_v15)) (Wv10 m c (Proc.devRef .tc main_v20)) :=
  (Wv11_arr m c 2).trans (final0 (fun c b => Wv10 m c b) c)

theorem Wv12_in0 (c : Dev nD) :
    Wv12 m c (Proc.devRef .tc main_v16) = Wv11 m c (Proc.devRef .tc main_v16) :=
  (Wv12_arr m c 0).trans (((dat1 (fun c b => Wv11 m c b) c).arrAt_in 0 rfl _).trans (A_eq1 _ c 0))

theorem Wv12_out (c : Dev nD) :
    Wv12 m c (Proc.devRef .tc main_v22)
      = Cert.Spec.bins 50176 (Wv11 m c (Proc.devRef .tc main_v16)) (Wv11 m c (Proc.devRef .tc main_v21)) :=
  (Wv12_arr m c 2).trans (final1 (fun c b => Wv11 m c b) c)

theorem Wv17_out (c : Dev nD) :
    Wv17 m c (Proc.devRef .tc main_v37)
      = Cert.Spec.pick (Wv16 m c (Proc.devRef .tc main_v15)) (Wv16 m c (Proc.devRef .tc main_v36)) :=
  (Wv17_arr m c 2).trans (final2 (fun c b => Wv16 m c b) c)

theorem Wv18_out (c : Dev nD) :
    Wv18 m c (Proc.devRef .tc main_v38)
      = Cert.Spec.bins 50176 (Wv17 m c (Proc.devRef .tc main_v16)) (Wv17 m c (Proc.devRef .tc main_v37)) :=
  (Wv18_arr m c 2).trans (final3 (fun c b => Wv17 m c b) c)

abbrev gx (c : Dev nD) : FVec Ideal S50000x64 .f32 := m ((c : Thread nD τ).loc main_arg0)

abbrev gW1 (c : Dev nD) : FVec Ideal S64x128 .f32 := m ((c : Thread nD τ).loc main_arg1)

abbrev gb1 (c : Dev nD) : FVec Ideal S128 .f32 := m ((c : Thread nD τ).loc main_arg2)

abbrev gW2 (c : Dev nD) : FVec Ideal S128x64 .f32 := m ((c : Thread nD τ).loc main_arg3)

abbrev gb2 (c : Dev nD) : FVec Ideal S64 .f32 := m ((c : Thread nD τ).loc main_arg4)

abbrev gsrc (c : Dev nD) : IVec S800000 32 := m ((c : Thread nD τ).loc main_arg5)

abbrev gdst (c : Dev nD) : IVec S800000 32 := m ((c : Thread nD τ).loc main_arg6)

theorem Wv5_arg5 (c : Dev nD) : Wv5 m c (Proc.devRef .tc main_arg5) = gsrc m c := (Wv_arg m c main_arg5 (by decide)).1
theorem Wv7_arg6 (c : Dev nD) : Wv7 m c (Proc.devRef .tc main_arg6) = gdst m c := (Wv_arg m c main_arg6 (by decide)).2.1
theorem Wv8_arg0 (c : Dev nD) : Wv8 m c (Proc.devRef .tc main_arg0) = gx m c := (Wv_arg m c main_arg0 (by decide)).2.2.1
theorem Wv12_arg1 (c : Dev nD) : Wv12 m c (Proc.devRef .tc main_arg1) = gW1 m c := (Wv_arg m c main_arg1 (by decide)).2.2.2.1
theorem Wv12_arg2 (c : Dev nD) : Wv12 m c (Proc.devRef .tc main_arg2) = gb1 m c := (Wv_arg m c main_arg2 (by decide)).2.2.2.1
theorem Wv14_arg3 (c : Dev nD) : Wv14 m c (Proc.devRef .tc main_arg3) = gW2 m c := (Wv_arg m c main_arg3 (by decide)).2.2.2.2.1
theorem Wv18_arg4 (c : Dev nD) : Wv18 m c (Proc.devRef .tc main_arg4) = gb2 m c := (Wv_arg m c main_arg4 (by decide)).2.2.2.2.2.1

def h0K (x : FVec Ideal S50000x64 .f32) (src : IVec S800000 32) : FVec Ideal S50000x64 .f32 :=
  mulf x (bb64 (normK src))

def h1K (x : FVec Ideal S50000x64 .f32) (W1 : FVec Ideal S64x128 .f32) (b1 : FVec Ideal S128 .f32)
    (W2 : FVec Ideal S128x64 .f32) (src dst : IVec S800000 32) : FVec Ideal S50000x64 .f32 :=
  Host.dotGeneral (F := Ideal) dot_S50000x128_S128x64_S50000x64_1_0_0_1_n_n none
    (mulf (maximumf (addf (mulf (Host.dotGeneral (F := Ideal) dot_S50000x64_S64x128_S50000x128_1_0_0_1_n_n none
        (Cert.Bridge.aggK (h0K x src) src dst) W1) (bb128 (normK dst))) (row128 b1))
      (broadcastInDim S50000x128 ![] bcast_S_S50000x128 (constant (F := Ideal) S_ .f32 0x00000000#32)))
      (bb128 (normK src))) W2

def kOut (x : FVec Ideal S50000x64 .f32) (W1 : FVec Ideal S64x128 .f32) (b1 : FVec Ideal S128 .f32)
    (W2 : FVec Ideal S128x64 .f32) (b2 : FVec Ideal S64 .f32) (src dst : IVec S800000 32) : FVec Ideal S50000x64 .f32 :=
  addf (mulf (Cert.Bridge.aggK (h1K x W1 b1 W2 src dst) src dst) (bb64 (normK dst))) (row64 b2)

theorem Wv1_v3 (c : Dev nD) : Wv1 m c (Proc.devRef .tc main_v3) = deg (gsrc m c) := ops0_v3 (Wv0 m c)
theorem Wv1_v6 (c : Dev nD) : Wv1 m c (Proc.devRef .tc main_v6) = deg (gdst m c) := ops0_v6 (Wv0 m c)
theorem Wv1_cst2 (c : Dev nD) : Wv1 m c (Proc.devRef .tc main_cst_2) = constant (F := Ideal) S_ .f32 0x3F800000#32 := ops0_cst2 (Wv0 m c)

theorem Wv2_v7 (c : Dev nD) : Wv2 m c (Proc.devRef .tc main_v7) = maximumf (broadcastInDim S50000 ![] bcast_S_S50000 (id (constant (F := Ideal) S_ .f32 0x3F800000#32))) (deg (gsrc m c)) := by
  rw [show Wv2 m c (Proc.devRef .tc main_v7) = _ from ops0_1_v7 (Wv1 m c), Wv1_cst2, Wv1_v3]

theorem Wv3_v9 (c : Dev nD) : Wv3 m c (Proc.devRef .tc main_v9) = normK (gsrc m c) := by
  rw [show Wv3 m c (Proc.devRef .tc main_v9) = _ from ops0_2_v9 (Wv2 m c), Wv2_v7]
  rfl

theorem Wv3_cst4 (c : Dev nD) : Wv3 m c (Proc.devRef .tc main_cst_4) = constant (F := Ideal) S_ .f32 0x3F800000#32 := ops0_2_cst4 (Wv2 m c)

theorem Wv4_v10 (c : Dev nD) : Wv4 m c (Proc.devRef .tc main_v10) = maximumf (broadcastInDim S50000 ![] bcast_S_S50000 (id (constant (F := Ideal) S_ .f32 0x3F800000#32))) (deg (gdst m c)) := by
  rw [show Wv4 m c (Proc.devRef .tc main_v10) = _ from ops0_3_v10 (Wv3 m c), Wv3_cst4,
    Wv3_of m c main_v6 (by decide), Wv2_of m c main_v6 (by decide), Wv1_v6]

theorem Wv5_v12 (c : Dev nD) : Wv5 m c (Proc.devRef .tc main_v12) = normK (gdst m c) := by
  rw [show Wv5 m c (Proc.devRef .tc main_v12) = _ from ops0_4_v12 (Wv4 m c), Wv4_v10]
  rfl

theorem Wv5_c (c : Dev nD) : Wv5 m c (Proc.devRef .tc main_c) = (constantI S_ 32 0#32 : IVec S_ 32) := ops0_4_c (Wv4 m c)

theorem Wv6_v13 (c : Dev nD) : Wv6 m c (Proc.devRef .tc main_v13)
    = (pad S800768 ![0] ![768] ![0] (gsrc m c) (id (constantI S_ 32 0#32)) pads_S800000_S800768_07680 h_S_ : IVec S800768 32) := by
  rw [show Wv6 m c (Proc.devRef .tc main_v13) = _ from ops0_5_v13 (Wv5 m c), Wv5_c, Wv5_arg5]

theorem Wv7_c6 (c : Dev nD) : Wv7 m c (Proc.devRef .tc main_c_6) = (constantI S_ 32 50176#32 : IVec S_ 32) := ops0_6_c6 (Wv6 m c)

theorem Wv8_v14 (c : Dev nD) : Wv8 m c (Proc.devRef .tc main_v14)
    = (pad S800768 ![0] ![768] ![0] (gdst m c) (id (constantI S_ 32 50176#32)) pads_S800000_S800768_07680 h_S_ : IVec S800768 32) := by
  rw [show Wv8 m c (Proc.devRef .tc main_v14) = _ from ops0_7_v14 (Wv7 m c), Wv7_c6, Wv7_arg6]

theorem Wv9_v15 (c : Dev nD) : Wv9 m c (Proc.devRef .tc main_v15) = Cert.Bridge.srcCol (gsrc m c) := by
  rw [show Wv9 m c (Proc.devRef .tc main_v15) = _ from ops0_8_v15 (Wv8 m c), Wv8_of m c main_v13 (by decide), Wv7_of m c main_v13 (by decide), Wv6_v13]
  rfl

theorem Wv9_v16 (c : Dev nD) : Wv9 m c (Proc.devRef .tc main_v16) = Cert.Bridge.dstRow (gdst m c) := by
  rw [show Wv9 m c (Proc.devRef .tc main_v16) = _ from ops0_8_v16 (Wv8 m c), Wv8_v14]
  rfl

theorem Wv9_v19 (c : Dev nD) : Wv9 m c (Proc.devRef .tc main_v19) = h0K (gx m c) (gsrc m c) := by
  rw [show Wv9 m c (Proc.devRef .tc main_v19) = _ from ops0_8_v19 (Wv8 m c), Wv8_arg0, Wv8_of m c main_v9 (by decide), Wv7_of m c main_v9 (by decide), Wv6_of m c main_v9 (by decide), Wv5_of m c main_v9 (by decide), Wv4_of m c main_v9 (by decide), Wv3_v9]
  rfl

theorem Wv9_c7 (c : Dev nD) : Wv9 m c (Proc.devRef .tc main_c_7) = (constantI S_ 32 0#32 : IVec S_ 32) := ops0_8_c7 (Wv8 m c)

theorem Wv10_v20 (c : Dev nD) : Wv10 m c (Proc.devRef .tc main_v20) = Cert.Bridge.padRows (h0K (gx m c) (gsrc m c)) := by
  rw [show Wv10 m c (Proc.devRef .tc main_v20) = _ from ops0_9_v20 (Wv9 m c), Wv9_v19, Wv9_c7]
  rfl

theorem Wv10_v15 (c : Dev nD) : Wv10 m c (Proc.devRef .tc main_v15) = Cert.Bridge.srcCol (gsrc m c) := by
  rw [Wv10_of m c main_v15 (by decide), Wv9_v15]

theorem Wv10_v16 (c : Dev nD) : Wv10 m c (Proc.devRef .tc main_v16) = Cert.Bridge.dstRow (gdst m c) := by
  rw [Wv10_of m c main_v16 (by decide), Wv9_v16]

theorem Wv11_v21 (c : Dev nD) : Wv11 m c (Proc.devRef .tc main_v21)
    = Cert.Spec.pick (Cert.Bridge.srcCol (gsrc m c)) (Cert.Bridge.padRows (h0K (gx m c) (gsrc m c))) := by
  rw [Wv11_out, Wv10_v15, Wv10_v20]

theorem Wv12_v22 (c : Dev nD) : Wv12 m c (Proc.devRef .tc main_v22)
    = Cert.Spec.bins 50176 (Cert.Bridge.dstRow (gdst m c))
        (Cert.Spec.pick (Cert.Bridge.srcCol (gsrc m c)) (Cert.Bridge.padRows (h0K (gx m c) (gsrc m c)))) := by
  rw [Wv12_out, Wv11_of_ne m c main_v16 (by decide), Wv10_v16, Wv11_v21]

theorem Wv13_v30 (c : Dev nD) : Wv13 m c (Proc.devRef .tc main_v30)
    = addf (mulf (Host.dotGeneral (F := Ideal) dot_S50000x64_S64x128_S50000x128_1_0_0_1_n_n none
        (Cert.Bridge.aggK (h0K (gx m c) (gsrc m c)) (gsrc m c) (gdst m c)) (gW1 m c)) (bb128 (normK (gdst m c)))) (row128 (gb1 m c)) := by
  rw [show Wv13 m c (Proc.devRef .tc main_v30) = _ from ops2_v30 (Wv12 m c), Wv12_v22, Wv12_arg1,
    Wv12_of_ne m c main_v12 (by decide), Wv11_of_ne m c main_v12 (by decide), Wv10_of m c main_v12 (by decide), Wv9_of m c main_v12 (by decide), Wv8_of m c main_v12 (by decide), Wv7_of m c main_v12 (by decide), Wv6_of m c main_v12 (by decide), Wv5_v12, Wv12_arg2]
  rfl

theorem Wv14_v31 (c : Dev nD) : Wv14 m c (Proc.devRef .tc main_v31)
    = maximumf (addf (mulf (Host.dotGeneral (F := Ideal) dot_S50000x64_S64x128_S50000x128_1_0_0_1_n_n none
        (Cert.Bridge.aggK (h0K (gx m c) (gsrc m c)) (gsrc m c) (gdst m c)) (gW1 m c)) (bb128 (normK (gdst m c)))) (row128 (gb1 m c)))
      (broadcastInDim S50000x128 ![] bcast_S_S50000x128 (constant (F := Ideal) S_ .f32 0x00000000#32)) := by
  rw [show Wv14 m c (Proc.devRef .tc main_v31) = _ from ops2_1_v31 (Wv13 m c), Wv13_v30]

theorem Wv15_v35 (c : Dev nD) : Wv15 m c (Proc.devRef .tc main_v35) = h1K (gx m c) (gW1 m c) (gb1 m c) (gW2 m c) (gsrc m c) (gdst m c) := by
  rw [show Wv15 m c (Proc.devRef .tc main_v35) = _ from ops2_2_v35 (Wv14 m c), Wv14_v31,
    Wv14_of m c main_v9 (by decide), Wv13_of m c main_v9 (by decide), Wv12_of_ne m c main_v9 (by decide), Wv11_of_ne m c main_v9 (by decide), Wv10_of m c main_v9 (by decide), Wv9_of m c main_v9 (by decide), Wv8_of m c main_v9 (by decide), Wv7_of m c main_v9 (by decide), Wv6_of m c main_v9 (by decide), Wv5_of m c main_v9 (by decide), Wv4_of m c main_v9 (by decide), Wv3_v9, Wv14_arg3]
  rfl

theorem Wv15_c8 (c : Dev nD) : Wv15 m c (Proc.devRef .tc main_c_8) = (constantI S_ 32 0#32 : IVec S_ 32) := ops2_2_c8 (Wv14 m c)

theorem Wv16_v36 (c : Dev nD) : Wv16 m c (Proc.devRef .tc main_v36)
    = Cert.Bridge.padRows (h1K (gx m c) (gW1 m c) (gb1 m c) (gW2 m c) (gsrc m c) (gdst m c)) := by
  rw [show Wv16 m c (Proc.devRef .tc main_v36) = _ from ops2_3_v36 (Wv15 m c), Wv15_v35, Wv15_c8]
  rfl

theorem Wv16_v15 (c : Dev nD) : Wv16 m c (Proc.devRef .tc main_v15) = Cert.Bridge.srcCol (gsrc m c) := by
  rw [Wv16_of m c main_v15 (by decide), Wv15_of m c main_v15 (by decide), Wv14_of m c main_v15 (by decide), Wv13_of m c main_v15 (by decide), Wv12_of_ne m c main_v15 (by decide), Wv11_in0 m c, Wv10_v15]

theorem Wv17_v16 (c : Dev nD) : Wv17 m c (Proc.devRef .tc main_v16) = Cert.Bridge.dstRow (gdst m c) := by
  rw [Wv17_of_ne m c main_v16 (by decide), Wv16_of m c main_v16 (by decide), Wv15_of m c main_v16 (by decide), Wv14_of m c main_v16 (by decide), Wv13_of m c main_v16 (by decide), Wv12_in0 m c, Wv11_of_ne m c main_v16 (by decide), Wv10_v16]

theorem Wv17_v37 (c : Dev nD) : Wv17 m c (Proc.devRef .tc main_v37)
    = Cert.Spec.pick (Cert.Bridge.srcCol (gsrc m c))
        (Cert.Bridge.padRows (h1K (gx m c) (gW1 m c) (gb1 m c) (gW2 m c) (gsrc m c) (gdst m c))) := by
  rw [Wv17_out, Wv16_v15, Wv16_v36]

theorem Wv18_v38 (c : Dev nD) : Wv18 m c (Proc.devRef .tc main_v38)
    = Cert.Spec.bins 50176 (Cert.Bridge.dstRow (gdst m c)) (Cert.Spec.pick (Cert.Bridge.srcCol (gsrc m c))
        (Cert.Bridge.padRows (h1K (gx m c) (gW1 m c) (gb1 m c) (gW2 m c) (gsrc m c) (gdst m c)))) := by
  rw [Wv18_out, Wv17_v16, Wv17_v37]

theorem result_eq (c : Dev nD) : Wv19 m c (Proc.devRef .tc main_v45)
    = kOut (gx m c) (gW1 m c) (gb1 m c) (gW2 m c) (gb2 m c) (gsrc m c) (gdst m c) := by
  rw [show Wv19 m c (Proc.devRef .tc main_v45) = _ from ops4_v45 (Wv18 m c), Wv18_v38,
    Wv18_of_ne m c main_v12 (by decide), Wv17_of_ne m c main_v12 (by decide), Wv16_of m c main_v12 (by decide), Wv15_of m c main_v12 (by decide), Wv14_of m c main_v12 (by decide), Wv13_of m c main_v12 (by decide), Wv12_of_ne m c main_v12 (by decide), Wv11_of_ne m c main_v12 (by decide), Wv10_of m c main_v12 (by decide), Wv9_of m c main_v12 (by decide), Wv8_of m c main_v12 (by decide), Wv7_of m c main_v12 (by decide), Wv6_of m c main_v12 (by decide), Wv5_v12, Wv18_arg4]
  rfl

theorem kOut_eq_outOf (x : FVec Ideal S50000x64 .f32) (W1 : FVec Ideal S64x128 .f32) (b1 : FVec Ideal S128 .f32)
    (W2 : FVec Ideal S128x64 .f32) (b2 : FVec Ideal S64 .f32) (src dst : IVec S800000 32) :
    kOut x W1 b1 W2 b2 src dst
      = Cert.Bridge.outOf (fun h => Cert.Bridge.aggK h src dst) x W1 b1 W2 b2 src dst := by
  unfold kOut h1K h0K normK deg bb64 bb128 row128 row64 Cert.Bridge.outOf
  rfl

theorem result_eq_outOf (c : Dev nD) : Wv19 m c (Proc.devRef .tc main_v45)
    = Cert.Bridge.outOf (fun h => Cert.Bridge.aggK h (gsrc m c) (gdst m c))
        (gx m c) (gW1 m c) (gb1 m c) (gW2 m c) (gb2 m c) (gsrc m c) (gdst m c) :=
  (result_eq m c).trans (kOut_eq_outOf _ _ _ _ _ _ _)

end Cert.KernelIdeal.Hand

end
-- ==== Proof.PreDecode.lean ====
import proofs.«406331_j48928267436271_1_alg».proof.Pre_finite_inputs
import Idealize.ShloMosaic.Lib.ReduceAll
import Idealize.ShloMosaic.Lib.ValueIdx

noncomputable section

namespace Cert.PreDecode

open Idealize.ShloMosaic

theorem toNat_lt_of_signed_range (w : BitVec 32) (h0 : IntOp.cmpi .sge w 0#32 = 1#1)
    (h1 : IntOp.cmpi .slt w 50000#32 = 1#1) : w.toNat < 50000 := by
  rw [IntOp.cmpi_sge] at h0
  rw [IntOp.cmpi_slt] at h1
  have z : (0#32 : BitVec 32).toInt = 0 := by decide
  have k : (50000#32 : BitVec 32).toInt = 50000 := by decide
  rw [z] at h0
  rw [k] at h1
  have hlt := w.isLt
  rw [BitVec.toInt_eq_toNat_cond] at h0 h1
  by_cases hc : 2 * w.toNat < 2 ^ 32
  · rw [if_pos hc] at h1
    omega
  · rw [if_neg hc] at h0
    omega

section
variable [Cert.Pre_finite_inputs.Facts]
open Cert.Pre_finite_inputs Cert.Pre_finite_inputs.Facts

instance : Subsingleton S_.Idx := ⟨fun a b => funext fun d => d.elim0⟩

theorem src_lt_of_pre (a0 : FVec Ideal S50000x64 .f32) (a1 : FVec Ideal S64x128 .f32) (a2 : FVec Ideal S128 .f32)
    (a3 : FVec Ideal S128x64 .f32) (a4 : FVec Ideal S64 .f32) (a5 a6 : IVec S800000 32)
    (h : fn (F := Ideal) a0 a1 a2 a3 a4 a5 a6 = fun _ => 1#1) :
    ∀ e : Fin 800000, (a5 (ValueIdx.ix1 e)).toNat < 50000 := by
  intro e

  have hv : fn (F := Ideal) a0 a1 a2 a3 a4 a5 a6 ValueIdx.ix0 = 1#1 := congrFun h ValueIdx.ix0
  have hand : IntOp.andi _ (Host.reduce IntOp.andi
      (andi (cmpi .sge a5 (broadcastInDim S800000 ![] bcast_S_S800000 (constantI S_ 32 0#32)))
        (cmpi .slt a5 (broadcastInDim S800000 ![] bcast_S_S800000 (constantI S_ 32 50000#32))))
      (constantI S_ 1 1#1) reducesTo_S800000_S_d0 h_S_ ValueIdx.ix0) = 1#1 := hv

  have hall := Host.reduce_andi_all _ _ _ _ _ (IntOp.andi_eq_one.1 hand).2 (ValueIdx.ix1 e)

  have hpair : IntOp.andi (IntOp.cmpi .sge (a5 (ValueIdx.ix1 e)) 0#32)
      (IntOp.cmpi .slt (a5 (ValueIdx.ix1 e)) 50000#32) = 1#1 := hall
  obtain ⟨hge, hlt⟩ := IntOp.andi_eq_one.1 hpair
  exact toNat_lt_of_signed_range _ hge hlt

end

end Cert.PreDecode

end
-- ==== Proof.Algebra.lean ====
import proofs.«406331_j48928267436271_1_alg».proof.Defs
import proofs.«406331_j48928267436271_1_alg».proof.Proof.IRun
import proofs.«406331_j48928267436271_1_alg».proof.Proof.IOut
import proofs.«406331_j48928267436271_1_alg».proof.Proof.Bridge
import proofs.«406331_j48928267436271_1_alg».proof.Proof.PreDecode
import proofs.«406331_j48928267436271_1_alg».proof.Proof.Gen.ReferenceIdeal.Run
import proofs.«406331_j48928267436271_1_alg».proof.Proof.Gen.Pre_finite_inputs

noncomputable section

namespace Cert.Proof.Alg

open Idealize.ShloMosaic Idealize.ShloMosaic.TcCoe Idealize.SL.Sem Idealize.ShloMosaic.ValueIdx

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.Wv19 (F := Ideal) m c (Proc.devRef .tc Cert.KernelIdeal.main_v45), ?_, ?_⟩
  · exact (θ_run (Cert.KernelIdeal.defs (F := Ideal)) _ _).mono (fun r h c =>
      ⟨h c _ (Cert.KernelIdeal.Hand.mem_uc Cert.KernelIdeal.main_v45 (by decide)),
       Cert.KernelIdeal.Hand.args_kept m c r.2 (h c)⟩)
      (Cert.KernelIdeal.Hand.run_all (F := Ideal) m ρ)
  · refine (θ_run (Cert.ReferenceIdeal.defs (F := Ideal)) _ _).mono (fun r h c => ⟨(h c).1.trans ?_, (h c).2⟩)
      (Cert.ReferenceIdeal.Value.run (F := Ideal) m' ρ')
    have hsrc := Cert.PreDecode.src_lt_of_pre _ _ _ _ _ _ _ (hpre c)
    obtain ⟨h0, h1, h2, h3, h4, h5, h6⟩ := hagree c
    rw [Cert.Bridge.ref_out_spec m' c (by rw [h5]; exact hsrc), h0, h1, h2, h3, h4, h5, h6]
    have hG : (fun h => Cert.Spec.agg h (Cert.KernelIdeal.Hand.gsrc m c) (Cert.KernelIdeal.Hand.gdst m c))
        = (fun h => Cert.Bridge.aggK h (Cert.KernelIdeal.Hand.gsrc m c) (Cert.KernelIdeal.Hand.gdst m c)) :=
      funext fun h => (Cert.Bridge.aggK_eq h _ _ hsrc).symm
    exact (congrArg (fun G => Cert.Bridge.outOf G (Cert.KernelIdeal.Hand.gx m c) (Cert.KernelIdeal.Hand.gW1 m c)
        (Cert.KernelIdeal.Hand.gb1 m c) (Cert.KernelIdeal.Hand.gW2 m c) (Cert.KernelIdeal.Hand.gb2 m c)
        (Cert.KernelIdeal.Hand.gsrc m c) (Cert.KernelIdeal.Hand.gdst m c)) hG).trans
      (Cert.KernelIdeal.Hand.result_eq_outOf m c).symm

end Cert.Proof.Alg

end
-- ==== Proof.lean ====
import proofs.«406331_j48928267436271_1_alg».proof.Defs
import proofs.«406331_j48928267436271_1_alg».proof.Proof.Gen.Kernel
import proofs.«406331_j48928267436271_1_alg».proof.Proof.Gen.KernelIdeal
import proofs.«406331_j48928267436271_1_alg».proof.Proof.Gen.ReferenceIdeal
import proofs.«406331_j48928267436271_1_alg».proof.Proof.Gen.Pre_finite_inputs
import proofs.«406331_j48928267436271_1_alg».proof.Proof.Frames
import proofs.«406331_j48928267436271_1_alg».proof.Proof.Algebra
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, trivial, Cert.Proof.Alg.algebraic⟩

end Cert.Proof

end
